-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S32 .f32) (main_arg10 : FVec F S32x10 .f32) (main_arg11 : FVec F S10 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x10 .f32 := Host.absf main_arg10
  let main_cst_14 : FVec F S_ .f32 := constant S_ .f32 0x7F800000#32
  let main_v40 : FVec F S32x10 .f32 := broadcastInDim S32x10 ![] bcast_S_S32x10 main_cst_14
  let main_v41 : IVec S32x10 1 := cmpf .olt main_v39 main_v40
  let main_c_15 : IVec S_ 1 := constantI S_ 1 1#1
  let main_v42 : IVec S_ 1 := (fun x v => Host.reduce IntOp.andi x v reducesTo_S32x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x32 .f32) (main_arg9 : FVec F S32 .f32) (main_arg10 : FVec F S32x10 .f32) (main_arg11 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S1600000 .f32) (main_arg3 : IVec S100000 32) (main_arg4 : FVec F S128x64 .f32) (main_arg5 : FVec F S64 .f32) (main_arg6 : FVec F S64x64 .f32) (main_arg7 : FVec F S64 .f32) (main_arg8 : FVec F S64x32 .f32) (main_arg9 : FVec F S32 .f32) (main_arg10 : FVec F S32x10 .f32) (main_arg11 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S1x32 : Shape := ⟨2, ![1, 32]⟩
abbrev S1x10 : Shape := ⟨2, ![1, 10]⟩
abbrev S128x10 : Shape := ⟨2, ![128, 10]⟩
abbrev S128x1 : Shape := ⟨2, ![128, 1]⟩
abbrev S5000x128 : Shape := ⟨2, ![5000, 128]⟩
abbrev S128x32 : Shape := ⟨2, ![128, 32]⟩

abbrev nBuf : Space → Nat
  | .hbm => 125
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x10, .f32⟩
  | .hbm, ⟨11, _⟩ => ⟨S10, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .i32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .i32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000, .f32⟩
  | .hbm, ⟨72, _⟩ => ⟨S1600000, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000, .f32⟩
  | .hbm, ⟨82, _⟩ => ⟨S1600000, .f32⟩
  | .hbm, ⟨83, _⟩ => ⟨S100000x1, .i32⟩
  | .hbm, ⟨84, _⟩ => ⟨S100000x64, .bf16⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .bf16⟩
  | .hbm, ⟨94, _⟩ => ⟨S1600000x64, .f32⟩
  | .hbm, ⟨95, _⟩ => ⟨S1600000x1, .f32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S1x64, .f32⟩
  | .hbm, ⟨103, _⟩ => ⟨S100000x64, .bf16⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S1600000x64, .bf16⟩
  | .hbm, ⟨113, _⟩ => ⟨S1600000x64, .f32⟩
  | .hbm, ⟨114, _⟩ => ⟨S1600000x1, .f32⟩
  | .hbm, ⟨115, _⟩ => ⟨S1600000x64, .f32⟩
  | .hbm, ⟨116, _⟩ => ⟨S1600000x64, .f32⟩
  | .hbm, ⟨117, _⟩ => ⟨S_, .f32⟩
  | .hbm, ⟨118, _⟩ => ⟨S100000x64, .f32⟩
  | .hbm, ⟨119, _⟩ => ⟨S1600000x1, .i32⟩
  | .hbm, ⟨120, _⟩ => ⟨S100000x64, .f32⟩
  | .hbm, ⟨121, _⟩ => ⟨S1x64, .f32⟩
  | .hbm, ⟨122, _⟩ => ⟨S1x32, .f32⟩
  | .hbm, ⟨123, _⟩ => ⟨S1x10, .f32⟩
  | .hbm, ⟨124, _⟩ => ⟨S128x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S5000x64, .f32⟩
  | .local _ .vmem, ⟨6, _⟩ => ⟨S5000x64, .f32⟩
  | .local _ .vmem, ⟨7, _⟩ => ⟨S5000x64, .bf16⟩
  | .local _ .vmem, ⟨8, _⟩ => ⟨S5000x64, .bf16⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x64, .bf16⟩
  | .local _ .vmem, ⟨18, _⟩ => ⟨S5000x64, .bf16⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x1, .i32⟩
  | .local _ .vmem, ⟨23, _⟩ => ⟨S5000x1, .i32⟩
  | .local _ .vmem, ⟨24, _⟩ => ⟨S64x32, .f32⟩
  | .local _ .vmem, ⟨25, _⟩ => ⟨S1x32, .f32⟩
  | .local _ .vmem, ⟨26, _⟩ => ⟨S32x10, .f32⟩
  | .local _ .vmem, ⟨27, _⟩ => ⟨S1x10, .f32⟩
  | .local _ .vmem, ⟨28, _⟩ => ⟨S128x10, .f32⟩
  | .local _ .vmem, ⟨29, _⟩ => ⟨S128x64, .f32⟩
  | .local _ .vmem, ⟨30, _⟩ => ⟨S128x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1_0 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_12 : Ref sig .tc := ⟨.hbm, 85, rfl⟩
abbrev main_v55 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_scratch0 : Ref sig .tc := ⟨.vmem, 29, rfl⟩
abbrev cc2_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_21 : BitVec 32 := 0#32
  let v43 : BitVec 1 := Scalar.cmpi .ne v42 c0_i32_21
  v43

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x10 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x10 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1600000 : S_.BroadcastsInDim S1600000 (![] : Fin 0 → Fin S1600000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  packedbf16_S5000x64_S5000x64_0_0 : (Rect.unit (s := S5000x64) ![0, 0] S5000x64.size inb_S5000x64_S5000x64_0_0).PackedRows (EltTy.packing .bf16)
  shapeCasts_S32_S1x32 : S32.ShapeCasts S1x32
  shapeCasts_S10_S1x10 : S10.ShapeCasts S1x10
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S5000x128_d1_w32 : S5000x128.Iotas .tc 32 [1]
  broadcasts_S5000x1_S5000x128 : S5000x1.Broadcasts S5000x128
  natLt_1_32 : 1 < 32
  broadcasts_S128x1_S128x64 : S128x1.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S100000_S1600000x1_S1600000_n_0_0_1_wf : ScatterDims.WF S100000 S1600000x1 S1600000 [] [0] [0] 1
  gather_S1600000_S1600000x1_S1600000_n_0_n_n_0_1_1_wf : GatherDims.WF S1600000 S1600000x1 S1600000 [] [0] [] [0] [] 1 ![1]
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S5000x128_S5000x1_S128x1_0_0_1_1_n_n_wf : DotDims.WF S5000x128 S5000x1 S128x1 [0] [0] [1] [1] [] []
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .bf16 = 32 ∨ (Rect.block (s := S100000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .i32 = 32 ∨ (Rect.block (s := S100000x1) S5000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x32.size a ≤ S64x32.size a
  hwx2_5 : ∀ i : grid2.Coords, EltTy.bits .f32 = 32 ∨ (Rect.block (s := S64x32) S64x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x10.size a ≤ S32x10.size a
  hwx2_7 : ∀ i : grid2.Coords, EltTy.bits .f32 = 32 ∨ (Rect.block (s := S32x10) S32x10.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x10.size a ≤ S1x10.size a
  hwx2_8 : ∀ i : grid2.Coords, EltTy.bits .f32 = 32 ∨ (Rect.block (s := S1x10) S1x10.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x10.size a ≤ S128x10.size a
  hwx2_9 : ∀ i : grid2.Coords, EltTy.bits .f32 = 32 ∨ (Rect.block (s := S128x10) S128x10.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v68) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v84) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v85) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S64x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S32x10.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v87) S1x10.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v88) S128x10.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S128 : Shape := ⟨1, ![128]⟩
abbrev S128x1 : Shape := ⟨2, ![128, 1]⟩
abbrev S128x32 : Shape := ⟨2, ![128, 32]⟩
abbrev S1x32 : Shape := ⟨2, ![1, 32]⟩
abbrev S128x10 : Shape := ⟨2, ![128, 10]⟩
abbrev S1x10 : Shape := ⟨2, ![1, 10]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x64, .f32⟩
  | 5 => ⟨S64, .f32⟩
  | 6 => ⟨S64x64, .f32⟩
  | 7 => ⟨S64, .f32⟩
  | 8 => ⟨S64x32, .f32⟩
  | 9 => ⟨S32, .f32⟩
  | 10 => ⟨S32x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000, .i32⟩
  | 78 => ⟨S1700000, .i32⟩
  | 79 => ⟨S1700000, .i32⟩
  | 80 => ⟨S_, .f32⟩
  | 81 => ⟨S100000, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S100000x64, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x64, .f32⟩
  | 125 => ⟨S1700000x1, .f32⟩
  | 126 => ⟨S1700000x64, .f32⟩
  | 127 => ⟨S1700000x64, .f32⟩
  | _ => ⟨S100000x128, .f32⟩

abbrev hbmTy0_1 (i : Nat) : BufTy := match i % 128 with
  | 0 => ⟨S_, .f32⟩
  | 1 => ⟨S100000x64, .f32⟩
  | 2 => ⟨S1700000x1, .i32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .f32⟩
  | 11 => ⟨S128x64, .f32⟩
  | 12 => ⟨S100000x1, .i32⟩
  | 13 => ⟨S128x64, .f32⟩
  | 14 => ⟨S_, .f32⟩
  | 15 => ⟨S100000, .f32⟩
  | 16 => ⟨S_, .f32⟩
  | 17 => ⟨S128, .f32⟩
  | 18 => ⟨S100000x1, .i32⟩
  | 19 => ⟨S128, .f32⟩
  | 20 => ⟨S_, .f32⟩
  | 21 => ⟨S_, .f32⟩
  | 22 => ⟨S128, .f32⟩
  | 23 => ⟨S128, .f32⟩
  | 24 => ⟨S128x1, .f32⟩
  | 25 => ⟨S128x64, .f32⟩
  | 26 => ⟨S128x64, .f32⟩
  | 27 => ⟨S128x32, .f32⟩
  | 28 => ⟨S1x32, .f32⟩
  | 29 => ⟨S128x32, .f32⟩
  | 30 => ⟨S128x32, .f32⟩
  | 31 => ⟨S_, .f32⟩
  | 32 => ⟨S128x32, .f32⟩
  | 33 => ⟨S128x32, .f32⟩
  | 34 => ⟨S128x10, .f32⟩
  | 35 => ⟨S1x10, .f32⟩
  | 36 => ⟨S128x10, .f32⟩
  | 37 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_17 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call3_cst : Ref sig .tc := ⟨.hbm, 135, rfl⟩
abbrev main_call3_v0 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_21 : Ref sig .tc := ⟨.hbm, 142, rfl⟩
abbrev main_v99 : Ref sig .tc := ⟨.hbm, 143, rfl⟩
abbrev main_cst_22 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_23 : Ref sig .tc := ⟨.hbm, 148, rfl⟩
abbrev main_call4_v0 : Ref sig .tc := ⟨.hbm, 149, rfl⟩
abbrev main_call4_v1 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_call5_cst : Ref sig .tc := ⟨.hbm, 159, rfl⟩
abbrev main_call5_v0 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

class Facts : Prop extends Facts₀ where

variable [Facts]
-- ==== Proof.KI.Region0.lean ====
import proofs.«403409_j10926396801662_3_alg».proof.Proof.Gen.KernelIdeal.Launch
import proofs.«403409_j10926396801662_3_alg».proof.Proof.Gen.KernelIdeal.Skeleton
import proofs.«403409_j10926396801662_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-- The product of the two loaded blocks, rounded to the result's format. -/
def out0_2 (x0 : Vec F S10000x128 .f32) (x1 : Vec F S128x64 .f32) : Vec F S10000x64 .bf16 :=
  View.canon [⟨r0_2, k0_pay1 (View.ld x0 r0_0) (View.ld x1 r0_1)⟩]

theorem cover0_2 (p0 : Vec F S10000x64 .bf16) (y : S10000x64.Idx) :
    ∃ pc ∈ ([⟨r0_2, p0⟩] : List (View.Piece (Elt F) S10000x64 .bf16)), y ∈ pc.1.set :=
  View.cover_of_tiled [⟨r0_2, p0⟩] S10000x64.size (by rfl) y

set_option maxHeartbeats 1000000 in

theorem sound_kernel0 (c : Dev nD) (E : Set ℕ) (i : grid0.Coords)
    (arg1 : Memref sig .tc .vmem S10000x128 .f32) (harg1 : arg1.IsWhole)
    (arg2 : Memref sig .tc .vmem S128x64 .f32) (harg2 : arg2.IsWhole)
    (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- After the body at point `t`: each input at its block, the result at the blocks' product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1 H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«403409_j10926396801662_3_alg».proof.Proof.Gen.KernelIdeal.Launch
import proofs.«403409_j10926396801662_3_alg».proof.Proof.Gen.KernelIdeal.Skeleton
import proofs.«403409_j10926396801662_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

/-- The rows' aggregate plus loop term plus bias, rectified, times the second layer's weights. -/
def out1_5 (x0 : Vec F S5000x64 .f32) (x1 : Vec F S5000x64 .bf16) (x2 : Vec F S5000x1 .f32) (x3 : Vec F S1x64 .f32)
    (x4 : Vec F S64x64 .f32) : Vec F S5000x64 .bf16 :=
  View.canon [⟨r1_0, k1_pay1 (View.ld x0 r1_0) (View.ld x2 r1_1) (View.ld x1 r1_0) (View.ld x3 r1_2) (View.ld x4 r1_3)⟩]

theorem cover1_5 (p0 : Vec F S5000x64 .bf16) (y : S5000x64.Idx) :
    ∃ pc ∈ ([⟨r1_0, p0⟩] : List (View.Piece (Elt F) S5000x64 .bf16)), y ∈ pc.1.set :=
  View.cover_of_tiled [⟨r1_0, p0⟩] S5000x64.size (by rfl) y

set_option maxHeartbeats 1000000 in

theorem sound_kernel1 (c : Dev nD) (E : Set ℕ) (i : grid1.Coords)
    (arg1 : Memref sig .tc .vmem S5000x64 .f32) (harg1 : arg1.IsWhole)
    (arg2 : Memref sig .tc .vmem S5000x64 .bf16) (harg2 : arg2.IsWhole)
    (arg3 : Memref sig .tc .vmem S5000x1 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S5000x64 .bf16) (harg6 : arg6.IsWhole)
    (x0 : Vec F S5000x64 .f32) (x1 : Vec F S5000x64 .bf16) (x2 : Vec F S5000x1 .f32) (x3 : Vec F S1x64 .f32)
    (x4 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__fused_agg_bias_relu_matmul_kernel i arg1 harg1 arg2 harg2 arg3 harg3 arg4 harg4 arg5 harg5 arg6 harg6) K := by
  simp only [cc1__fused_agg_bias_relu_matmul_kernel_eq_skeleton]; unfold cc1__fused_agg_bias_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- After the body at point `t`: each input at its block, the result at `out1_5` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe HΦ Ho H0 H1 H2 H3 H4 H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2Runs.lean ====
import proofs.«403409_j10926396801662_3_alg».proof.Proof.Gen.KernelIdeal.Launch
import proofs.«403409_j10926396801662_3_alg».proof.Proof.Gen.KernelIdeal.Skeleton
import proofs.«403409_j10926396801662_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

end Region2

/-- The body's first branch, taken at the first of the twenty points only: both running sums are reset. -/
abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 20 = 0 :=
  (by decide +kernel : ∀ t : Fin grid2.N, cond2_0 (grid2.coords t) ↔ t.val % 20 = 0)

/-- The body's second branch, taken at the last point only: the means go through the perceptron. -/
abbrev cond2_1 (i : grid2.Coords) : Prop := k2_cond2 i = 1#1

theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel

theorem idleAt2_9_A : ∀ t : Fin cfg2.N, cond2_0 (grid2.coords t) → ¬cond2_1 (grid2.coords t) → cfg2.idle 9 (grid2.coords t) = true := by decide +kernel
theorem noFlush2_9_A : ∀ t : Fin cfg2.N, cond2_0 (grid2.coords t) → ¬cond2_1 (grid2.coords t) → (cfg2.win 9).flush t = false := by decide +kernel

theorem idleAt2_9_B : ∀ t : Fin cfg2.N, ¬cond2_0 (grid2.coords t) → ¬cond2_1 (grid2.coords t) → cfg2.idle 9 (grid2.coords t) = true := by decide +kernel
theorem noFlush2_9_B : ∀ t : Fin cfg2.N, ¬cond2_0 (grid2.coords t) → ¬cond2_1 (grid2.coords t) → (cfg2.win 9).flush t = false := by decide +kernel

theorem liveAt2_9_C : ∀ t : Fin cfg2.N, ¬cond2_0 (grid2.coords t) → cond2_1 (grid2.coords t) → cfg2.idle 9 (grid2.coords t) = false := by decide +kernel

abbrev VO2_9 : View sig .tc .vmem S128x10 .f32 := (Memref.whole cc2_stg9_0 : Memref sig .tc .vmem S128x10 .f32).view

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S32x10 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x10 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S128x10 .f32 := win2_9.stage (cfg2.slots t 9)
abbrev hs2_9 (t : Fin cfg2.N) : (ms2_9 t).IsWhole := hstage2_9 ((cfg2.slots t 9).cast nbuf2_9)

abbrev scM2_0 : Memref sig .tc .vmem S128x64 .f32 := Memref.whole cc2_scratch0
abbrev scM2_1 : Memref sig .tc .vmem S128x1 .f32 := Memref.whole cc2_scratch1

abbrev VS2_0 : View sig .tc .vmem S128x64 .f32 := scM2_0.view
abbrev VS2_1 : View sig .tc .vmem S128x1 .f32 := scM2_1.view

def rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA rest2
  rw [Pipeline.scopedRest_split_of_list spec2 c [cc2_scratch0, cc2_scratch1] (by decide) (by decide)]
  simp only [scM2_0, scM2_1, owns_whole]; try rfl

/-- The twelve memrefs the pooling body is called with, each whole. -/
structure Args2 where
  a1 : Memref sig .tc .vmem S5000x64 .f32
  h1 : a1.IsWhole
  a2 : Memref sig .tc .vmem S5000x64 .bf16
  h2 : a2.IsWhole
  a3 : Memref sig .tc .vmem S5000x1 .f32
  h3 : a3.IsWhole
  a4 : Memref sig .tc .vmem S1x64 .f32
  h4 : a4.IsWhole
  a5 : Memref sig .tc .vmem S5000x1 .i32
  h5 : a5.IsWhole
  a6 : Memref sig .tc .vmem S64x32 .f32
  h6 : a6.IsWhole
  a7 : Memref sig .tc .vmem S1x32 .f32
  h7 : a7.IsWhole
  a8 : Memref sig .tc .vmem S32x10 .f32
  h8 : a8.IsWhole
  a9 : Memref sig .tc .vmem S1x10 .f32
  h9 : a9.IsWhole
  a10 : Memref sig .tc .vmem S128x10 .f32
  h10 : a10.IsWhole
  a11 : Memref sig .tc .vmem S128x64 .f32
  h11 : a11.IsWhole
  a12 : Memref sig .tc .vmem S128x1 .f32
  h12 : a12.IsWhole

/-- The nine input blocks of a grid point. -/
structure In2 (F : FTy → Type) [FloatOps F] where
  x0 : Vec F S5000x64 .f32
  x1 : Vec F S5000x64 .bf16
  x2 : Vec F S5000x1 .f32
  x3 : Vec F S1x64 .f32
  x4 : Vec F S5000x1 .i32
  x5 : Vec F S64x32 .f32
  x6 : Vec F S1x32 .f32
  x7 : Vec F S32x10 .f32
  x8 : Vec F S1x10 .f32

/-- The body's arguments at grid point `t`. -/
abbrev stg2 (t : Fin cfg2.N) : Args2 :=
  ⟨ms2_0 t, hs2_0 t, ms2_1 t, hs2_1 t, ms2_2 t, hs2_2 t, ms2_3 t, hs2_3 t, ms2_4 t, hs2_4 t, ms2_5 t, hs2_5 t, ms2_6 t, hs2_6 t,
    ms2_7 t, hs2_7 t, ms2_8 t, hs2_8 t, ms2_9 t, hs2_9 t, scM2_0, Memref.isWhole_whole _, scM2_1, Memref.isWhole_whole _⟩

section
variable (V : (c : Dev nD) → (b : Ref sig .tc) → Buf (Elt F) ((c : Thread nD τ).loc b))

/-- The nine input windows' blocks at grid point `t`. -/
abbrev blks2 (c : Dev nD) (t : Fin cfg2.N) : In2 F :=
  ⟨iblk2 V c 0 t, iblk2 V c 1 t, iblk2 V c 2 t, iblk2 V c 3 t, iblk2 V c 4 t, iblk2 V c 5 t, iblk2 V c 6 t, iblk2 V c 7 t, iblk2 V c 8 t⟩
end

end Cert.KernelIdeal.Hand

end
-- ==== Proof.KI.Region2RunA.lean ====
import proofs.«403409_j10926396801662_3_alg».proof.Proof.KI.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's run at the first point: the pieces its stores leave in the two running sums, and its triple at them.
set_option maxHeartbeats 1000000 in
noncomputable def kernelRun2_A (c : Dev nD) (i : grid2.Coords) (A : Args2) (hc0 : cond2_0 i) (hc1 : ¬cond2_1 i) (x : In2 F) :
    Σ' (L9 : List (View.Piece (Elt F) S128x10 .f32)) (LS0 : List (View.Piece (Elt F) S128x64 .f32)), { LS1 : List (View.Piece (Elt F) S128x1 .f32) //
      ∀ (xi9 : Vec F S128x10 .f32) (E : Set ℕ) (K : PUnit → sProp 𝕄),
        iprop(owns (c : Thread nD τ) A.a1 fullShare x.x0 ∗ owns (c : Thread nD τ) A.a2 fullShare x.x1 ∗ owns (c : Thread nD τ) A.a3 fullShare x.x2 ∗ owns (c : Thread nD τ) A.a4 fullShare x.x3 ∗ owns (c : Thread nD τ) A.a5 fullShare x.x4 ∗ owns (c : Thread nD τ) A.a6 fullShare x.x5 ∗ owns (c : Thread nD τ) A.a7 fullShare x.x6 ∗ owns (c : Thread nD τ) A.a8 fullShare x.x7 ∗ owns (c : Thread nD τ) A.a9 fullShare x.x8 ∗ owns (c : Thread nD τ) A.a10 fullShare xi9 ∗ (∃ d, owns (c : Thread nD τ) A.a11 fullShare d) ∗ (∃ d, owns (c : Thread nD τ) A.a12 fullShare d)
            ∗ (iprop(owns (c : Thread nD τ) A.a1 fullShare x.x0 ∗ owns (c : Thread nD τ) A.a2 fullShare x.x1 ∗ owns (c : Thread nD τ) A.a3 fullShare x.x2 ∗ owns (c : Thread nD τ) A.a4 fullShare x.x3 ∗ owns (c : Thread nD τ) A.a5 fullShare x.x4 ∗ owns (c : Thread nD τ) A.a6 fullShare x.x5 ∗ owns (c : Thread nD τ) A.a7 fullShare x.x6 ∗ owns (c : Thread nD τ) A.a8 fullShare x.x7 ∗ owns (c : Thread nD τ) A.a9 fullShare x.x8 ∗ owns (c : Thread nD τ) A.a10 fullShare xi9 ∗ (∃ f, A.a11.view.loc (c : Thread nD τ) ↦[A.a11.view.set]{fullShare} A.a11.view.writes (Elt F) f LS0) ∗ (∃ f, A.a12.view.loc (c : Thread nD τ) ↦[A.a12.view.set]{fullShare} A.a12.view.writes (Elt F) f LS1)) -∗ K ⟨⟩))
          ⊢ wp frame (wpE (defs₀ (F := F)) Variants.none c none) E (cc2__pool_mlp_kernel i A.a1 A.h1 A.a2 A.h2 A.a3 A.h3 A.a4 A.h4 A.a5 A.h5 A.a6 A.h6 A.a7 A.h7 A.a8 A.h8 A.a9 A.h9 A.a10 A.h10 A.a11 A.h11 A.a12 A.h12) K } := by
  refine ⟨[], ?_, ?_, fun xi9 E K => ?run⟩
  case run =>
    simp only [cc2__pool_mlp_kernel_eq_skeleton]; unfold cc2__pool_mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := A.h1.eq_unread hf0; obtain rfl := A.h2.eq_unread hf1; obtain rfl := A.h3.eq_unread hf2; obtain rfl := A.h4.eq_unread hf3; obtain rfl := A.h5.eq_unread hf4; obtain rfl := A.h6.eq_unread hf5; obtain rfl := A.h7.eq_unread hf6; obtain rfl := A.h8.eq_unread hf7; obtain rfl := A.h9.eq_unread hf8; obtain rfl := A.h10.eq_unread hf9
    sl_exec (disch := first | exact hc0 | exact hc1)
    sl_step
    iapply Hk
    isplitl [H0]
    · iexists _; isplitr; · ipureintro; exact A.h1.read_unread _
      iexact H0
    isplitl [H1]
    · iexists _; isplitr; · ipureintro; exact A.h2.read_unread _
      iexact H1
    isplitl [H2]
    · iexists _; isplitr; · ipureintro; exact A.h3.read_unread _
      iexact H2
    isplitl [H3]
    · iexists _; isplitr; · ipureintro; exact A.h4.read_unread _
      iexact H3
    isplitl [H4]
    · iexists _; isplitr; · ipureintro; exact A.h5.read_unread _
      iexact H4
    isplitl [H5]
    · iexists _; isplitr; · ipureintro; exact A.h6.read_unread _
      iexact H5
    isplitl [H6]
    · iexists _; isplitr; · ipureintro; exact A.h7.read_unread _
      iexact H6
    isplitl [H7]
    · iexists _; isplitr; · ipureintro; exact A.h8.read_unread _
      iexact H7
    isplitl [H8]
    · iexists _; isplitr; · ipureintro; exact A.h9.read_unread _
      iexact H8
    isplitl [H9]
    · iexists _; isplitr; · ipureintro; exact A.h10.read_unread _
      iexact H9
    isplitl [HS0]; · iexists _; iexact HS0
    iexists _; iexact HS1

end Cert.KernelIdeal.Hand

end
-- ==== Proof.KI.Region2RunB.lean ====
import proofs.«403409_j10926396801662_3_alg».proof.Proof.KI.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's run at a middle point, over the running sums found.
set_option maxHeartbeats 1000000 in
noncomputable def kernelRun2_B (c : Dev nD) (i : grid2.Coords) (A : Args2) (hc0 : ¬cond2_0 i) (hc1 : ¬cond2_1 i) (x : In2 F) (xs0 : Vec F S128x64 .f32) (xs1 : Vec F S128x1 .f32) :
    Σ' (L9 : List (View.Piece (Elt F) S128x10 .f32)) (LS0 : List (View.Piece (Elt F) S128x64 .f32)), { LS1 : List (View.Piece (Elt F) S128x1 .f32) //
      ∀ (xi9 : Vec F S128x10 .f32) (E : Set ℕ) (K : PUnit → sProp 𝕄),
        iprop(owns (c : Thread nD τ) A.a1 fullShare x.x0 ∗ owns (c : Thread nD τ) A.a2 fullShare x.x1 ∗ owns (c : Thread nD τ) A.a3 fullShare x.x2 ∗ owns (c : Thread nD τ) A.a4 fullShare x.x3 ∗ owns (c : Thread nD τ) A.a5 fullShare x.x4 ∗ owns (c : Thread nD τ) A.a6 fullShare x.x5 ∗ owns (c : Thread nD τ) A.a7 fullShare x.x6 ∗ owns (c : Thread nD τ) A.a8 fullShare x.x7 ∗ owns (c : Thread nD τ) A.a9 fullShare x.x8 ∗ owns (c : Thread nD τ) A.a10 fullShare xi9 ∗ owns (c : Thread nD τ) A.a11 fullShare xs0 ∗ owns (c : Thread nD τ) A.a12 fullShare xs1
            ∗ (iprop(owns (c : Thread nD τ) A.a1 fullShare x.x0 ∗ owns (c : Thread nD τ) A.a2 fullShare x.x1 ∗ owns (c : Thread nD τ) A.a3 fullShare x.x2 ∗ owns (c : Thread nD τ) A.a4 fullShare x.x3 ∗ owns (c : Thread nD τ) A.a5 fullShare x.x4 ∗ owns (c : Thread nD τ) A.a6 fullShare x.x5 ∗ owns (c : Thread nD τ) A.a7 fullShare x.x6 ∗ owns (c : Thread nD τ) A.a8 fullShare x.x7 ∗ owns (c : Thread nD τ) A.a9 fullShare x.x8 ∗ owns (c : Thread nD τ) A.a10 fullShare xi9 ∗ (∃ f, A.a11.view.loc (c : Thread nD τ) ↦[A.a11.view.set]{fullShare} A.a11.view.writes (Elt F) f LS0) ∗ (∃ f, A.a12.view.loc (c : Thread nD τ) ↦[A.a12.view.set]{fullShare} A.a12.view.writes (Elt F) f LS1)) -∗ K ⟨⟩))
          ⊢ wp frame (wpE (defs₀ (F := F)) Variants.none c none) E (cc2__pool_mlp_kernel i A.a1 A.h1 A.a2 A.h2 A.a3 A.h3 A.a4 A.h4 A.a5 A.h5 A.a6 A.h6 A.a7 A.h7 A.a8 A.h8 A.a9 A.h9 A.a10 A.h10 A.a11 A.h11 A.a12 A.h12) K } := by
  refine ⟨[], ?_, ?_, fun xi9 E K => ?run⟩
  case run =>
    simp only [cc2__pool_mlp_kernel_eq_skeleton]; unfold cc2__pool_mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := A.h1.eq_unread hf0; obtain rfl := A.h2.eq_unread hf1; obtain rfl := A.h3.eq_unread hf2; obtain rfl := A.h4.eq_unread hf3; obtain rfl := A.h5.eq_unread hf4; obtain rfl := A.h6.eq_unread hf5; obtain rfl := A.h7.eq_unread hf6; obtain rfl := A.h8.eq_unread hf7; obtain rfl := A.h9.eq_unread hf8; obtain rfl := A.h10.eq_unread hf9; obtain rfl := A.h11.eq_unread hfs0; obtain rfl := A.h12.eq_unread hfs1
    sl_exec (disch := first | exact hc0 | exact hc1)
    sl_step
    iapply Hk
    isplitl [H0]
    · iexists _; isplitr; · ipureintro; exact A.h1.read_unread _
      iexact H0
    isplitl [H1]
    · iexists _; isplitr; · ipureintro; exact A.h2.read_unread _
      iexact H1
    isplitl [H2]
    · iexists _; isplitr; · ipureintro; exact A.h3.read_unread _
      iexact H2
    isplitl [H3]
    · iexists _; isplitr; · ipureintro; exact A.h4.read_unread _
      iexact H3
    isplitl [H4]
    · iexists _; isplitr; · ipureintro; exact A.h5.read_unread _
      iexact H4
    isplitl [H5]
    · iexists _; isplitr; · ipureintro; exact A.h6.read_unread _
      iexact H5
    isplitl [H6]
    · iexists _; isplitr; · ipureintro; exact A.h7.read_unread _
      iexact H6
    isplitl [H7]
    · iexists _; isplitr; · ipureintro; exact A.h8.read_unread _
      iexact H7
    isplitl [H8]
    · iexists _; isplitr; · ipureintro; exact A.h9.read_unread _
      iexact H8
    isplitl [H9]
    · iexists _; isplitr; · ipureintro; exact A.h10.read_unread _
      iexact H9
    isplitl [HS0]; · iexists _; iexact HS0
    iexists _; iexact HS1

end Cert.KernelIdeal.Hand

end
-- ==== Proof.KI.Region2RunC.lean ====
import proofs.«403409_j10926396801662_3_alg».proof.Proof.KI.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body's run at the last point: the running sums once more, and the result block stored.
set_option maxHeartbeats 1000000 in
noncomputable def kernelRun2_C (c : Dev nD) (i : grid2.Coords) (A : Args2) (hc0 : ¬cond2_0 i) (hc1 : cond2_1 i) (x : In2 F) (xs0 : Vec F S128x64 .f32) (xs1 : Vec F S128x1 .f32) :
    Σ' (L9 : List (View.Piece (Elt F) S128x10 .f32)) (LS0 : List (View.Piece (Elt F) S128x64 .f32)), { LS1 : List (View.Piece (Elt F) S128x1 .f32) //
      ∀ (E : Set ℕ) (K : PUnit → sProp 𝕄),
        iprop(owns (c : Thread nD τ) A.a1 fullShare x.x0 ∗ owns (c : Thread nD τ) A.a2 fullShare x.x1 ∗ owns (c : Thread nD τ) A.a3 fullShare x.x2 ∗ owns (c : Thread nD τ) A.a4 fullShare x.x3 ∗ owns (c : Thread nD τ) A.a5 fullShare x.x4 ∗ owns (c : Thread nD τ) A.a6 fullShare x.x5 ∗ owns (c : Thread nD τ) A.a7 fullShare x.x6 ∗ owns (c : Thread nD τ) A.a8 fullShare x.x7 ∗ owns (c : Thread nD τ) A.a9 fullShare x.x8 ∗ (∃ d, owns (c : Thread nD τ) A.a10 fullShare d) ∗ owns (c : Thread nD τ) A.a11 fullShare xs0 ∗ owns (c : Thread nD τ) A.a12 fullShare xs1
            ∗ (iprop(owns (c : Thread nD τ) A.a1 fullShare x.x0 ∗ owns (c : Thread nD τ) A.a2 fullShare x.x1 ∗ owns (c : Thread nD τ) A.a3 fullShare x.x2 ∗ owns (c : Thread nD τ) A.a4 fullShare x.x3 ∗ owns (c : Thread nD τ) A.a5 fullShare x.x4 ∗ owns (c : Thread nD τ) A.a6 fullShare x.x5 ∗ owns (c : Thread nD τ) A.a7 fullShare x.x6 ∗ owns (c : Thread nD τ) A.a8 fullShare x.x7 ∗ owns (c : Thread nD τ) A.a9 fullShare x.x8 ∗ (∃ f, A.a10.view.loc (c : Thread nD τ) ↦[A.a10.view.set]{fullShare} A.a10.view.writes (Elt F) f L9) ∗ (∃ f, A.a11.view.loc (c : Thread nD τ) ↦[A.a11.view.set]{fullShare} A.a11.view.writes (Elt F) f LS0) ∗ (∃ f, A.a12.view.loc (c : Thread nD τ) ↦[A.a12.view.set]{fullShare} A.a12.view.writes (Elt F) f LS1)) -∗ K ⟨⟩))
          ⊢ wp frame (wpE (defs₀ (F := F)) Variants.none c none) E (cc2__pool_mlp_kernel i A.a1 A.h1 A.a2 A.h2 A.a3 A.h3 A.a4 A.h4 A.a5 A.h5 A.a6 A.h6 A.a7 A.h7 A.a8 A.h8 A.a9 A.h9 A.a10 A.h10 A.a11 A.h11 A.a12 A.h12) K } := by
  refine ⟨?_, ?_, ?_, fun E K => ?run⟩
  case run =>
    simp only [cc2__pool_mlp_kernel_eq_skeleton]; unfold cc2__pool_mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := A.h1.eq_unread hf0; obtain rfl := A.h2.eq_unread hf1; obtain rfl := A.h3.eq_unread hf2; obtain rfl := A.h4.eq_unread hf3; obtain rfl := A.h5.eq_unread hf4; obtain rfl := A.h6.eq_unread hf5; obtain rfl := A.h7.eq_unread hf6; obtain rfl := A.h8.eq_unread hf7; obtain rfl := A.h9.eq_unread hf8; obtain rfl := A.h11.eq_unread hfs0; obtain rfl := A.h12.eq_unread hfs1
    sl_exec (disch := first | exact hc0 | exact hc1)
    sl_step
    iapply Hk
    isplitl [H0]
    · iexists _; isplitr; · ipureintro; exact A.h1.read_unread _
      iexact H0
    isplitl [H1]
    · iexists _; isplitr; · ipureintro; exact A.h2.read_unread _
      iexact H1
    isplitl [H2]
    · iexists _; isplitr; · ipureintro; exact A.h3.read_unread _
      iexact H2
    isplitl [H3]
    · iexists _; isplitr; · ipureintro; exact A.h4.read_unread _
      iexact H3
    isplitl [H4]
    · iexists _; isplitr; · ipureintro; exact A.h5.read_unread _
      iexact H4
    isplitl [H5]
    · iexists _; isplitr; · ipureintro; exact A.h6.read_unread _
      iexact H5
    isplitl [H6]
    · iexists _; isplitr; · ipureintro; exact A.h7.read_unread _
      iexact H6
    isplitl [H7]
    · iexists _; isplitr; · ipureintro; exact A.h8.read_unread _
      iexact H7
    isplitl [H8]
    · iexists _; isplitr; · ipureintro; exact A.h9.read_unread _
      iexact H8
    isplitl [H9]; · iexists _; iexact H9
    isplitl [HS0]; · iexists _; iexact HS0
    iexists _; iexact HS1

end Cert.KernelIdeal.Hand

end
-- ==== Proof.KI.Region2.lean ====
import proofs.«403409_j10926396801662_3_alg».proof.Proof.KI.Region2RunA
import proofs.«403409_j10926396801662_3_alg».proof.Proof.KI.Region2RunB
import proofs.«403409_j10926396801662_3_alg».proof.Proof.KI.Region2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def out2_A_9 (c : Dev nD) (i : grid2.Coords) (A : Args2) (hc0 : cond2_0 i) (hc1 : ¬cond2_1 i) (x : In2 F) : Vec F S128x10 .f32 :=
  VO2_9.read (Elt F) (VO2_9.writes (Elt F) VO2_9.junk (kernelRun2_A c i A hc0 hc1 x).1)

theorem scover2_A_0 (c : Dev nD) (i : grid2.Coords) (A : Args2) (hc0 : cond2_0 i) (hc1 : ¬cond2_1 i) (x : In2 F) (y : S128x64.Idx) :
    ∃ pc ∈ (kernelRun2_A c i A hc0 hc1 x).2.1, y ∈ pc.1.set :=
  View.cover_of_tiledL (kernelRun2_A c i A hc0 hc1 x).2.1 S128x64.size (by sl_kernel_rfl) y

def sout2_A_0 (c : Dev nD) (i : grid2.Coords) (A : Args2) (hc0 : cond2_0 i) (hc1 : ¬cond2_1 i) (x : In2 F) : Vec F S128x64 .f32 :=
  VS2_0.read (Elt F) (VS2_0.writes (Elt F) VS2_0.junk (kernelRun2_A c i A hc0 hc1 x).2.1)

theorem scover2_A_1 (c : Dev nD) (i : grid2.Coords) (A : Args2) (hc0 : cond2_0 i) (hc1 : ¬cond2_1 i) (x : In2 F) (y : S128x1.Idx) :
    ∃ pc ∈ (kernelRun2_A c i A hc0 hc1 x).2.2.1, y ∈ pc.1.set :=
  View.cover_of_tiledL (kernelRun2_A c i A hc0 hc1 x).2.2.1 S128x1.size (by sl_kernel_rfl) y

def sout2_A_1 (c : Dev nD) (i : grid2.Coords) (A : Args2) (hc0 : cond2_0 i) (hc1 : ¬cond2_1 i) (x : In2 F) : Vec F S128x1 .f32 :=
  VS2_1.read (Elt F) (VS2_1.writes (Elt F) VS2_1.junk (kernelRun2_A c i A hc0 hc1 x).2.2.1)

def out2_B_9 (c : Dev nD) (i : grid2.Coords) (A : Args2) (hc0 : ¬cond2_0 i) (hc1 : ¬cond2_1 i) (x : In2 F) (xs0 : Vec F S128x64 .f32) (xs1 : Vec F S128x1 .f32) : Vec F S128x10 .f32 :=
  VO2_9.read (Elt F) (VO2_9.writes (Elt F) VO2_9.junk (kernelRun2_B c i A hc0 hc1 x xs0 xs1).1)

theorem scover2_B_0 (c : Dev nD) (i : grid2.Coords) (A : Args2) (hc0 : ¬cond2_0 i) (hc1 : ¬cond2_1 i) (x : In2 F) (xs0 : Vec F S128x64 .f32) (xs1 : Vec F S128x1 .f32) (y : S128x64.Idx) :
    ∃ pc ∈ (kernelRun2_B c i A hc0 hc1 x xs0 xs1).2.1, y ∈ pc.1.set :=
  View.cover_of_tiledL (kernelRun2_B c i A hc0 hc1 x xs0 xs1).2.1 S128x64.size (by sl_kernel_rfl) y

def sout2_B_0 (c : Dev nD) (i : grid2.Coords) (A : Args2) (hc0 : ¬cond2_0 i) (hc1 : ¬cond2_1 i) (x : In2 F) (xs0 : Vec F S128x64 .f32) (xs1 : Vec F S128x1 .f32) : Vec F S128x64 .f32 :=
  VS2_0.read (Elt F) (VS2_0.writes (Elt F) VS2_0.junk (kernelRun2_B c i A hc0 hc1 x xs0 xs1).2.1)

theorem scover2_B_1 (c : Dev nD) (i : grid2.Coords) (A : Args2) (hc0 : ¬cond2_0 i) (hc1 : ¬cond2_1 i) (x : In2 F) (xs0 : Vec F S128x64 .f32) (xs1 : Vec F S128x1 .f32) (y : S128x1.Idx) :
    ∃ pc ∈ (kernelRun2_B c i A hc0 hc1 x xs0 xs1).2.2.1, y ∈ pc.1.set :=
  View.cover_of_tiledL (kernelRun2_B c i A hc0 hc1 x xs0 xs1).2.2.1 S128x1.size (by sl_kernel_rfl) y

def sout2_B_1 (c : Dev nD) (i : grid2.Coords) (A : Args2) (hc0 : ¬cond2_0 i) (hc1 : ¬cond2_1 i) (x : In2 F) (xs0 : Vec F S128x64 .f32) (xs1 : Vec F S128x1 .f32) : Vec F S128x1 .f32 :=
  VS2_1.read (Elt F) (VS2_1.writes (Elt F) VS2_1.junk (kernelRun2_B c i A hc0 hc1 x xs0 xs1).2.2.1)

theorem cover2_C_9 (c : Dev nD) (i : grid2.Coords) (A : Args2) (hc0 : ¬cond2_0 i) (hc1 : cond2_1 i) (x : In2 F) (xs0 : Vec F S128x64 .f32) (xs1 : Vec F S128x1 .f32) (y : S128x10.Idx) :
    ∃ pc ∈ (kernelRun2_C c i A hc0 hc1 x xs0 xs1).1, y ∈ pc.1.set :=
  View.cover_of_tiledL (kernelRun2_C c i A hc0 hc1 x xs0 xs1).1 S128x10.size (by sl_kernel_rfl) y

def out2_C_9 (c : Dev nD) (i : grid2.Coords) (A : Args2) (hc0 : ¬cond2_0 i) (hc1 : cond2_1 i) (x : In2 F) (xs0 : Vec F S128x64 .f32) (xs1 : Vec F S128x1 .f32) : Vec F S128x10 .f32 :=
  VO2_9.read (Elt F) (VO2_9.writes (Elt F) VO2_9.junk (kernelRun2_C c i A hc0 hc1 x xs0 xs1).1)

theorem scover2_C_0 (c : Dev nD) (i : grid2.Coords) (A : Args2) (hc0 : ¬cond2_0 i) (hc1 : cond2_1 i) (x : In2 F) (xs0 : Vec F S128x64 .f32) (xs1 : Vec F S128x1 .f32) (y : S128x64.Idx) :
    ∃ pc ∈ (kernelRun2_C c i A hc0 hc1 x xs0 xs1).2.1, y ∈ pc.1.set :=
  View.cover_of_tiledL (kernelRun2_C c i A hc0 hc1 x xs0 xs1).2.1 S128x64.size (by sl_kernel_rfl) y

def sout2_C_0 (c : Dev nD) (i : grid2.Coords) (A : Args2) (hc0 : ¬cond2_0 i) (hc1 : cond2_1 i) (x : In2 F) (xs0 : Vec F S128x64 .f32) (xs1 : Vec F S128x1 .f32) : Vec F S128x64 .f32 :=
  VS2_0.read (Elt F) (VS2_0.writes (Elt F) VS2_0.junk (kernelRun2_C c i A hc0 hc1 x xs0 xs1).2.1)

theorem scover2_C_1 (c : Dev nD) (i : grid2.Coords) (A : Args2) (hc0 : ¬cond2_0 i) (hc1 : cond2_1 i) (x : In2 F) (xs0 : Vec F S128x64 .f32) (xs1 : Vec F S128x1 .f32) (y : S128x1.Idx) :
    ∃ pc ∈ (kernelRun2_C c i A hc0 hc1 x xs0 xs1).2.2.1, y ∈ pc.1.set :=
  View.cover_of_tiledL (kernelRun2_C c i A hc0 hc1 x xs0 xs1).2.2.1 S128x1.size (by sl_kernel_rfl) y

def sout2_C_1 (c : Dev nD) (i : grid2.Coords) (A : Args2) (hc0 : ¬cond2_0 i) (hc1 : cond2_1 i) (x : In2 F) (xs0 : Vec F S128x64 .f32) (xs1 : Vec F S128x1 .f32) : Vec F S128x1 .f32 :=
  VS2_1.read (Elt F) (VS2_1.writes (Elt F) VS2_1.junk (kernelRun2_C c i A hc0 hc1 x xs0 xs1).2.2.1)

section Region2

variable (V : (c : Dev nD) → (b : Ref sig .tc) → Buf (Elt F) ((c : Thread nD τ).loc b))

/-- After point `n`: the result block, the running sums per graph and feature, the running counts per graph. -/
def outsAt2 (c : Dev nD) : (n : ℕ) → n < cfg2.N → Vec F S128x10 .f32 × Vec F S128x64 .f32 × Vec F S128x1 .f32
  | 0, hn => (out2_A_9 c (grid2.coords ⟨0, hn⟩) (stg2 ⟨0, hn⟩) ((hcond2_0 ⟨0, hn⟩).mpr (Nat.zero_mod _)) (fun h => (fun h => by (try dsimp only at h); omega) ((hcond2_1 ⟨0, hn⟩).mp h)) (blks2 V c ⟨0, hn⟩), sout2_A_0 c (grid2.coords ⟨0, hn⟩) (stg2 ⟨0, hn⟩) ((hcond2_0 ⟨0, hn⟩).mpr (Nat.zero_mod _)) (fun h => (fun h => by (try dsimp only at h); omega) ((hcond2_1 ⟨0, hn⟩).mp h)) (blks2 V c ⟨0, hn⟩), sout2_A_1 c (grid2.coords ⟨0, hn⟩) (stg2 ⟨0, hn⟩) ((hcond2_0 ⟨0, hn⟩).mpr (Nat.zero_mod _)) (fun h => (fun h => by (try dsimp only at h); omega) ((hcond2_1 ⟨0, hn⟩).mp h)) (blks2 V c ⟨0, hn⟩))
  | n + 1, hn =>
    if h0 : (n + 1) % 20 = 0 then
      if h1 : (n + 1) % 20 = 19 then
        False.elim (by omega)
      else
        (out2_A_9 c (grid2.coords ⟨n + 1, hn⟩) (stg2 ⟨n + 1, hn⟩) ((hcond2_0 ⟨n + 1, hn⟩).mpr h0) (fun h => h1 ((hcond2_1 ⟨n + 1, hn⟩).mp h)) (blks2 V c ⟨n + 1, hn⟩), sout2_A_0 c (grid2.coords ⟨n + 1, hn⟩) (stg2 ⟨n + 1, hn⟩) ((hcond2_0 ⟨n + 1, hn⟩).mpr h0) (fun h => h1 ((hcond2_1 ⟨n + 1, hn⟩).mp h)) (blks2 V c ⟨n + 1, hn⟩), sout2_A_1 c (grid2.coords ⟨n + 1, hn⟩) (stg2 ⟨n + 1, hn⟩) ((hcond2_0 ⟨n + 1, hn⟩).mpr h0) (fun h => h1 ((hcond2_1 ⟨n + 1, hn⟩).mp h)) (blks2 V c ⟨n + 1, hn⟩))
    else
      if h1 : (n + 1) % 20 = 19 then
        (out2_C_9 c (grid2.coords ⟨n + 1, hn⟩) (stg2 ⟨n + 1, hn⟩) (fun h => h0 ((hcond2_0 ⟨n + 1, hn⟩).mp h)) ((hcond2_1 ⟨n + 1, hn⟩).mpr h1) (blks2 V c ⟨n + 1, hn⟩) (outsAt2 c n (Nat.lt_of_succ_lt hn)).2.1 (outsAt2 c n (Nat.lt_of_succ_lt hn)).2.2, sout2_C_0 c (grid2.coords ⟨n + 1, hn⟩) (stg2 ⟨n + 1, hn⟩) (fun h => h0 ((hcond2_0 ⟨n + 1, hn⟩).mp h)) ((hcond2_1 ⟨n + 1, hn⟩).mpr h1) (blks2 V c ⟨n + 1, hn⟩) (outsAt2 c n (Nat.lt_of_succ_lt hn)).2.1 (outsAt2 c n (Nat.lt_of_succ_lt hn)).2.2, sout2_C_1 c (grid2.coords ⟨n + 1, hn⟩) (stg2 ⟨n + 1, hn⟩) (fun h => h0 ((hcond2_0 ⟨n + 1, hn⟩).mp h)) ((hcond2_1 ⟨n + 1, hn⟩).mpr h1) (blks2 V c ⟨n + 1, hn⟩) (outsAt2 c n (Nat.lt_of_succ_lt hn)).2.1 (outsAt2 c n (Nat.lt_of_succ_lt hn)).2.2)
      else
        (out2_B_9 c (grid2.coords ⟨n + 1, hn⟩) (stg2 ⟨n + 1, hn⟩) (fun h => h0 ((hcond2_0 ⟨n + 1, hn⟩).mp h)) (fun h => h1 ((hcond2_1 ⟨n + 1, hn⟩).mp h)) (blks2 V c ⟨n + 1, hn⟩) (outsAt2 c n (Nat.lt_of_succ_lt hn)).2.1 (outsAt2 c n (Nat.lt_of_succ_lt hn)).2.2, sout2_B_0 c (grid2.coords ⟨n + 1, hn⟩) (stg2 ⟨n + 1, hn⟩) (fun h => h0 ((hcond2_0 ⟨n + 1, hn⟩).mp h)) (fun h => h1 ((hcond2_1 ⟨n + 1, hn⟩).mp h)) (blks2 V c ⟨n + 1, hn⟩) (outsAt2 c n (Nat.lt_of_succ_lt hn)).2.1 (outsAt2 c n (Nat.lt_of_succ_lt hn)).2.2, sout2_B_1 c (grid2.coords ⟨n + 1, hn⟩) (stg2 ⟨n + 1, hn⟩) (fun h => h0 ((hcond2_0 ⟨n + 1, hn⟩).mp h)) (fun h => h1 ((hcond2_1 ⟨n + 1, hn⟩).mp h)) (blks2 V c ⟨n + 1, hn⟩) (outsAt2 c n (Nat.lt_of_succ_lt hn)).2.1 (outsAt2 c n (Nat.lt_of_succ_lt hn)).2.2)

theorem outsAt2_A (c : Dev nD) (t : Fin cfg2.N) (h0 : t.val % 20 = 0) (h1 : ¬t.val % 20 = 19) :
    outsAt2 V c t.val t.isLt = (out2_A_9 c (grid2.coords t) (stg2 t) ((hcond2_0 t).mpr h0) (fun h => h1 ((hcond2_1 t).mp h)) (blks2 V c t), sout2_A_0 c (grid2.coords t) (stg2 t) ((hcond2_0 t).mpr h0) (fun h => h1 ((hcond2_1 t).mp h)) (blks2 V c t), sout2_A_1 c (grid2.coords t) (stg2 t) ((hcond2_0 t).mpr h0) (fun h => h1 ((hcond2_1 t).mp h)) (blks2 V c t)) := by
  obtain ⟨n, hn⟩ := t
  cases n with
  | zero => exact rfl
  | succ n => exact (dif_pos h0).trans ((dif_neg h1).trans rfl)

theorem outsAt2_B (c : Dev nD) (t : Fin cfg2.N) (h0 : ¬t.val % 20 = 0) (h1 : ¬t.val % 20 = 19) :
    outsAt2 V c t.val t.isLt = (out2_B_9 c (grid2.coords t) (stg2 t) (fun h => h0 ((hcond2_0 t).mp h)) (fun h => h1 ((hcond2_1 t).mp h)) (blks2 V c t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (stg2 t) (fun h => h0 ((hcond2_0 t).mp h)) (fun h => h1 ((hcond2_1 t).mp h)) (blks2 V c t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (stg2 t) (fun h => h0 ((hcond2_0 t).mp h)) (fun h => h1 ((hcond2_1 t).mp h)) (blks2 V c t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 20 = 0) (h1 : t.val % 20 = 19) :
    outsAt2 V c t.val t.isLt = (out2_C_9 c (grid2.coords t) (stg2 t) (fun h => h0 ((hcond2_0 t).mp h)) ((hcond2_1 t).mpr h1) (blks2 V c t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (stg2 t) (fun h => h0 ((hcond2_0 t).mp h)) ((hcond2_1 t).mpr h1) (blks2 V c t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (stg2 t) (fun h => h0 ((hcond2_0 t).mp h)) ((hcond2_1 t).mpr h1) (blks2 V c t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- Between two points the running sums and counts are what the earlier point left. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2)) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2)) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2)) ∗ rest2 c) ∗ (∃ r, prngReg c r)) := by
  cases n with
  | zero => exact absurd rfl hz
  | succ n => rfl

/-- After the body at point `t`: each input at its block, the result at `outsAt2`'s first component. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  by_cases h0 : t.val % 20 = 0
  · by_cases h1 : t.val % 20 = 19
    · exfalso; omega
    · have hz : t.val = 0 := by omega
      rw [Dat.leavesExact_idle (dat2 V c) 9 t (idleAt2_9_A t ((hcond2_0 t).mpr h0) (fun h => h1 ((hcond2_1 t).mp h))) (noFlush2_9_A t ((hcond2_0 t).mpr h0) (fun h => h1 ((hcond2_1 t).mp h)))]
      rw [outsAt2_A V c t h0 h1]
      unfold sout2_A_0 sout2_A_1; (try dsimp only)
      rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_A c (grid2.coords t) (stg2 t) ((hcond2_0 t).mpr h0) (fun h => h1 ((hcond2_1 t).mp h)) (blks2 V c t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_A_0 c _ _ _ _ _)
            · unfold owns; iexists _; isplitr
              swap; · iexact HS1
              ipureintro; exact View.read_writes_of_cover _ _ _ _ _ (scover2_A_1 c _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun hz => h0 (by rw [hz])
    by_cases h1 : t.val % 20 = 19
    · rw [show (dat2 V c).leavesExact 9 t = owns (c : Thread nD τ) (ms2_9 t) fullShare ((dat2 V c).after 9 t) from by
        unfold Dat.leavesExact; rw [liveAt2_9_C t (fun h => h0 ((hcond2_0 t).mp h)) ((hcond2_1 t).mpr h1)], after2_9]
      rw [outsAt2_C V c t h0 h1]
      unfold out2_C_9 sout2_C_0 sout2_C_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_C c (grid2.coords t) (stg2 t) (fun h => h0 ((hcond2_0 t).mp h)) ((hcond2_1 t).mpr h1) (blks2 V c t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _)
            · unfold owns; iexists _; isplitr
              swap; · iexact HS1
              ipureintro; exact View.read_writes_of_cover _ _ _ _ _ (scover2_C_1 c _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover2_C_9 c _ _ _ _ _ _ _)
    · rw [Dat.leavesExact_idle (dat2 V c) 9 t (idleAt2_9_B t (fun h => h0 ((hcond2_0 t).mp h)) (fun h => h1 ((hcond2_1 t).mp h))) (noFlush2_9_B t (fun h => h0 ((hcond2_0 t).mp h)) (fun h => h1 ((hcond2_1 t).mp h)))]
      rw [outsAt2_B V c t h0 h1]
      unfold sout2_B_0 sout2_B_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_B c (grid2.coords t) (stg2 t) (fun h => h0 ((hcond2_0 t).mp h)) (fun h => h1 ((hcond2_1 t).mp h)) (blks2 V c t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _)
            · unfold owns; iexists _; isplitr
              swap; · iexact HS1
              ipureintro; exact View.read_writes_of_cover _ _ _ _ _ (scover2_B_1 c _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

theorem hout2 (c : Dev nD) : (dat2 V c).Φ (Fin.last cfg2.N) ⊢ Pipeline.ΦA spec2 c :=
  Phi_out2 V c _ (by rw [Fin.val_last]; have : cfg2.N = 20 := N_2; omega)

end Region2

end Cert.KernelIdeal.Hand

end
-- ==== Proof.KI.Run.lean ====
import proofs.«403409_j10926396801662_3_alg».proof.Proof.Gen.KernelIdeal.Launch
import proofs.«403409_j10926396801662_3_alg».proof.Proof.Gen.KernelIdeal.Skeleton
import proofs.«403409_j10926396801662_3_alg».proof.Proof.Gen.KernelIdeal.Points
import proofs.«403409_j10926396801662_3_alg».proof.Proof.Gen.KernelIdeal.Regions
import proofs.«403409_j10926396801662_3_alg».proof.Proof.KI.Region0
import proofs.«403409_j10926396801662_3_alg».proof.Proof.KI.Region1
import proofs.«403409_j10926396801662_3_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch; `W1` … `W10` are the contents after each of @main's ten items in turn. -/
abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev W5 : Dev nD → Valuation τ sig (Elt F) := fun c => StableHlo.after hostOps0_4 (W4 m ρ c)

abbrev V0 : (c : Dev nD) → (b : Ref sig .tc) → Buf (Elt F) ((c : Thread nD τ).loc b) := fun c b => W0 m ρ c b

abbrev V5 : (c : Dev nD) → (b : Ref sig .tc) → Buf (Elt F) ((c : Thread nD τ).loc b) := fun c b => W5 m ρ c b

/-- After region 0: its result array assembled from the grid points' result blocks, every other buffer as it was. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b

theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- A host stretch changes only the buffers its operations write. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
theorem W9_of (c : Dev nD) (r : Ref sig .tc) (h : r ∉ hostOps2_W) :
    W9 m ρ c (Proc.devRef .tc r) = W8 m ρ c (Proc.devRef .tc r) :=
  StableHlo.after_of_writes_sub hostOps2 _ hostOps2_writes h

section AtEntry

variable (V : (c : Dev nD) → (b : Ref sig .tc) → Buf (Elt F) ((c : Thread nD τ).loc b))

theorem arrAt_in0 (c : Dev nD) (w : Fin cfg0.W) (hin : (cfg0.win w).isOut = false) (t : ℕ) :
    (dat0 V c).arrAt w t = V c (Pipeline.arrRef spec0 w) :=
  ((dat0 V c).arrAt_in w hin t).trans (A_eq0 V c w)
theorem arrAt_in1 (c : Dev nD) (w : Fin cfg1.W) (hin : (cfg1.win w).isOut = false) (t : ℕ) :
    (dat1 V c).arrAt w t = V c (Pipeline.arrRef spec1 w) :=
  ((dat1 V c).arrAt_in w hin t).trans (A_eq1 V c w)
theorem arrAt_in2 (c : Dev nD) (w : Fin cfg2.W) (hin : (cfg2.win w).isOut = false) (t : ℕ) :
    (dat2 V c).arrAt w t = V c (Pipeline.arrRef spec2 w) :=
  ((dat2 V c).arrAt_in w hin t).trans (A_eq2 V c w)

end AtEntry

/-- A region changes only its result array. -/
theorem W6_keep (c : Dev nD) (r : Ref sig .tc) (h : ∀ w, Pipeline.arrRef spec0 w = r → (cfg0.win w).isOut = false) :
    W6 m ρ c (Proc.devRef .tc r) = W5 m ρ c (Proc.devRef .tc r) := by
  by_cases hr : ∃ w, Pipeline.arrRef spec0 w = r
  · obtain ⟨w, rfl⟩ := hr
    exact (W6_arr m ρ c w).trans (arrAt_in0 (V5 m ρ) c w (h w rfl) _)
  · exact W6_of_ne m ρ c r fun w e => hr ⟨w, e⟩
theorem W8_keep (c : Dev nD) (r : Ref sig .tc) (h : ∀ w, Pipeline.arrRef spec1 w = r → (cfg1.win w).isOut = false) :
    W8 m ρ c (Proc.devRef .tc r) = W7 m ρ c (Proc.devRef .tc r) := by
  by_cases hr : ∃ w, Pipeline.arrRef spec1 w = r
  · obtain ⟨w, rfl⟩ := hr
    exact (W8_arr m ρ c w).trans (arrAt_in1 (V7 m ρ) c w (h w rfl) _)
  · exact W8_of_ne m ρ c r fun w e => hr ⟨w, e⟩
theorem W10_keep (c : Dev nD) (r : Ref sig .tc) (h : ∀ w, Pipeline.arrRef spec2 w = r → (cfg2.win w).isOut = false) :
    W10 m ρ c (Proc.devRef .tc r) = W9 m ρ c (Proc.devRef .tc r) := by
  by_cases hr : ∃ w, Pipeline.arrRef spec2 w = r
  · obtain ⟨w, rfl⟩ := hr
    exact (W10_arr m ρ c w).trans (arrAt_in2 (V9 m ρ) c w (h w rfl) _)
  · exact W10_of_ne m ρ c r fun w e => hr ⟨w, e⟩

/-- A buffer that no host stretch writes and that is no region's result array ends as launched. -/
theorem W10_kept (c : Dev nD) (r : Ref sig .tc)
    (h1 : r ∉ hostOps0_W) (h2 : r ∉ hostOps0_1_W) (h3 : r ∉ hostOps0_2_W) (h4 : r ∉ hostOps0_3_W) (h5 : r ∉ hostOps0_4_W)
    (h6 : ∀ w, Pipeline.arrRef spec0 w = r → (cfg0.win w).isOut = false) (h7 : r ∉ hostOps1_W)
    (h8 : ∀ w, Pipeline.arrRef spec1 w = r → (cfg1.win w).isOut = false) (h9 : r ∉ hostOps2_W)
    (h10 : ∀ w, Pipeline.arrRef spec2 w = r → (cfg2.win w).isOut = false) :
    W10 m ρ c (Proc.devRef .tc r) = W0 m ρ c (Proc.devRef .tc r) :=
  (W10_keep m ρ c r h10).trans <| (W9_of m ρ c r h9).trans <| (W8_keep m ρ c r h8).trans <| (W7_of m ρ c r h7).trans <|
    (W6_keep m ρ c r h6).trans <| (W5_of m ρ c r h5).trans <| (W4_of m ρ c r h4).trans <| (W3_of m ρ c r h3).trans <|
    (W2_of m ρ c r h2).trans (W1_of m ρ c r h1)

/-- The twelve argument arrays read in a memory `s` are the launch memory's. -/
def ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

abbrev args : List (Ref sig .tc) :=
  [main_arg0, main_arg1, main_arg2, main_arg3, main_arg4, main_arg5, main_arg6, main_arg7, main_arg8, main_arg9, main_arg10, main_arg11]

/-- Each region's proof data at the contents the region is entered with. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun w => A_eq2 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V9 m ρ) c).Φ 0 from rfl]
    refine BIBase.Entails.trans ?_ (hin2 (V9 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V9 m ρ) c).Φ (Fin.last cfg2.N) from rfl]
    refine BIBase.Entails.trans (hout2 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ) ]

/-- @main is the chain of its ten items. -/
theorem main_run (c : Dev nD) : main (F := F) c = Pipeline.Seg.run (segs m ρ) :=
  (main_chain c).trans (by rw [Pipeline.Seg.run_eq_chain]; rfl)

set_option backward.isDefEq.respectTransparency.types false in

theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- An argument is unscoped, no host stretch writes it and it is no region's result array: a memory holding every
    unscoped buffer at the last boundary's contents holds it as launched. -/
theorem arg_kept (c : Dev nD) {s : MemSt nD τ sig (Elt F)}
    (h : ∀ b ∈ Pipeline.ucRefs τ sig, s.mem (((c : Thread nD τ)).1, b) = W10 m ρ c b) :
    ∀ r ∈ args, s.mem ((c.tc : Thread nD τ).loc r) = m ((c.tc : Thread nD τ).loc r) := by
  intro r hr
  refine (h _ (mem_uc r ?_)).trans (W10_kept m ρ c r ?_ ?_ ?_ ?_ ?_ ?_ ?_ ?_ ?_ ?_) <;> (revert r; decide)

/-- @main terminates, nothing faulting, with the result buffer at the last boundary's contents and the arguments as
    launched. -/
theorem run_value : θ_run defs (onTc (τ := τ) (main (F := F))) ⟨m, fun _ => 0, ρ⟩ (fun r => ∀ c : Dev nD,
      r.2.mem ((c.tc : Thread nD τ).loc main_v88) = W10 m ρ c (Proc.devRef .tc main_v88) ∧ ArgsKept m r.2 c) :=
  run_post m ρ fun s h c =>
    have k := arg_kept m ρ c (h c)
    ⟨h c _ (mem_uc main_v88 (by decide)), k _ (by decide), k _ (by decide), k _ (by decide), k _ (by decide), k _ (by decide),
      k _ (by decide), k _ (by decide), k _ (by decide), k _ (by decide), k _ (by decide), k _ (by decide), k _ (by decide)⟩

theorem frame : θ_run defs (onTc (τ := τ) (main (F := F))) ⟨m, fun _ => 0, ρ⟩ (fun r => ∀ c : Dev nD, ArgsKept m r.2 c) :=
  (θ_run defs _ _).mono (fun _ h c => (h c).2) (run_value m ρ)

end Cert.KernelIdeal.Hand

end
-- ==== Proof.Val.Fold.lean ====
import proofs.«403409_j10926396801662_3_alg».proof.Proof.KI.Run
import Idealize.ShloMosaic.PureOps.Ideal

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD) (r : Ref sig .tc)

theorem v6_main_v54 : Hand.V6 m ρ c main_v54 = (Hand.dat0 (Hand.V5 m ρ) c).arrAt 2 cfg0.N :=
  Hand.W6_arr m ρ c 2
theorem v8_main_v70 : Hand.V8 m ρ c main_v70 = (Hand.dat1 (Hand.V7 m ρ) c).arrAt 5 cfg1.N :=
  Hand.W8_arr m ρ c 5
theorem v10_main_v88 : Hand.V10 m ρ c main_v88 = (Hand.dat2 (Hand.V9 m ρ) c).arrAt 9 cfg2.N :=
  Hand.W10_arr m ρ c 9

/-- Buffer `r` holds `x` at region 0's entry and at every boundary from there to region 2's entry. -/
structure Held (x : Buf (Elt Ideal) ((c : Thread nD τ).loc r)) : Prop where
  v5 : Hand.V5 m ρ c r = x
  v6 : Hand.V6 m ρ c r = x
  v7 : Hand.V7 m ρ c r = x
  v8 : Hand.V8 m ρ c r = x
  v9 : Hand.V9 m ρ c r = x

/-- A buffer that no region writes back and neither later stretch of operations writes keeps its contents. -/
theorem held (x : Buf (Elt Ideal) ((c : Thread nD τ).loc r)) (h5 : Hand.V5 m ρ c r = x)
    (h : (∀ w, Pipeline.arrRef spec0 w = r → (cfg0.win w).isOut = false) ∧ r ∉ hostOps1_W ∧
      (∀ w, Pipeline.arrRef spec1 w = r → (cfg1.win w).isOut = false) ∧ r ∉ hostOps2_W) : Held m ρ c r x :=
  have h6 := (Hand.W6_keep m ρ c r h.1).trans h5
  have h7 := (Hand.W7_of m ρ c r h.2.1).trans h6
  have h8 := (Hand.W8_keep m ρ c r h.2.2.1).trans h7
  ⟨h5, h6, h7, h8, (Hand.W9_of m ρ c r h.2.2.2).trans h8⟩

theorem launch5 (h : r ∉ hostOps0_W ∧ r ∉ hostOps0_1_W ∧ r ∉ hostOps0_2_W ∧ r ∉ hostOps0_3_W ∧ r ∉ hostOps0_4_W) :
    Hand.V5 m ρ c r = m ((c : Thread nD τ).loc r) :=
  (Hand.W5_of m ρ c r h.2.2.2.2).trans <| (Hand.W4_of m ρ c r h.2.2.2.1).trans <| (Hand.W3_of m ρ c r h.2.2.1).trans <|
    (Hand.W2_of m ρ c r h.2.1).trans (Hand.W1_of m ρ c r h.1)

theorem k14 : Held m ρ c main_v14 (Hand.V5 m ρ c main_v14) := held m ρ c _ _ rfl (by decide)
theorem k22 : Held m ρ c main_v22 (Hand.V5 m ρ c main_v22) := held m ρ c _ _ rfl (by decide)
theorem k29 : Held m ρ c main_v29 (Hand.V5 m ρ c main_v29) := held m ρ c _ _ rfl (by decide)
theorem k52 : Held m ρ c main_v52 (Hand.V5 m ρ c main_v52) := held m ρ c _ _ rfl (by decide)
theorem k53 : Held m ρ c main_v53 (Hand.V5 m ρ c main_v53) := held m ρ c _ _ rfl (by decide)
theorem k54 : Hand.V7 m ρ c main_v54 = Hand.V6 m ρ c main_v54 := Hand.W7_of m ρ c _ (by decide)
theorem k70 : Hand.V9 m ρ c main_v70 = Hand.V8 m ρ c main_v70 := Hand.W9_of m ρ c _ (by decide)

theorem a0 : Held m ρ c main_arg0 (m ((c : Thread nD τ).loc main_arg0)) := held m ρ c _ _ (launch5 m ρ c _ (by decide)) (by decide)
theorem a4 : Held m ρ c main_arg4 (m ((c : Thread nD τ).loc main_arg4)) := held m ρ c _ _ (launch5 m ρ c _ (by decide)) (by decide)
theorem a5 : Held m ρ c main_arg5 (m ((c : Thread nD τ).loc main_arg5)) := held m ρ c _ _ (launch5 m ρ c _ (by decide)) (by decide)
theorem a6 : Held m ρ c main_arg6 (m ((c : Thread nD τ).loc main_arg6)) := held m ρ c _ _ (launch5 m ρ c _ (by decide)) (by decide)
theorem a7 : Held m ρ c main_arg7 (m ((c : Thread nD τ).loc main_arg7)) := held m ρ c _ _ (launch5 m ρ c _ (by decide)) (by decide)
theorem a8 : Held m ρ c main_arg8 (m ((c : Thread nD τ).loc main_arg8)) := held m ρ c _ _ (launch5 m ρ c _ (by decide)) (by decide)
theorem a9 : Held m ρ c main_arg9 (m ((c : Thread nD τ).loc main_arg9)) := held m ρ c _ _ (launch5 m ρ c _ (by decide)) (by decide)
theorem a10 : Held m ρ c main_arg10 (m ((c : Thread nD τ).loc main_arg10)) := held m ρ c _ _ (launch5 m ρ c _ (by decide)) (by decide)
theorem a11 : Held m ρ c main_arg11 (m ((c : Thread nD τ).loc main_arg11)) := held m ρ c _ _ (launch5 m ρ c _ (by decide)) (by decide)

end Cert.KernelIdeal.Val

end
-- ==== Proof.Spec.lean ====
import Idealize.ShloMosaic.PureOps.Ideal
import Idealize.ShloMosaic.Lib.ValueIdx

noncomputable section

namespace GCN

open Idealize.ShloMosaic
open scoped BigOperators

abbrev NN : ℕ := 100000
abbrev EE : ℕ := 1600000
abbrev GG : ℕ := 128

/-- The 32-bit word `v`, read as a signed integer, is the natural number `i`. -/
def hit (v : BitVec 32) (i : ℕ) : Prop := v.toInt = (i : ℤ)

instance (v : BitVec 32) (i : ℕ) : Decidable (hit v i) := by unfold hit; infer_instance

/-- A negative index word counts from the end of an axis of length `n`. -/
def wrap (n : ℕ) (v : BitVec 32) : BitVec 32 := if v.slt 0#32 then v + BitVec.ofNat 32 n else v

/-- The position an index word selects on an axis of length `n`: wrapped, then clamped into range. -/
def node (n : ℕ) (hn : 0 < n) (v : BitVec 32) : Fin n := ⟨min (wrap n v).toInt.toNat (n - 1), by omega⟩

abbrev gnode (v : BitVec 32) : Fin NN := node NN (by decide) v

abbrev A2 {a b : ℕ} {α : Type} (f : (⟨2, ![a, b]⟩ : Shape).Idx → α) : Fin a → Fin b → α := fun p q => f (ValueIdx.ix2 p q)
abbrev A1 {a : ℕ} {α : Type} (f : (⟨1, ![a]⟩ : Shape).Idx → α) : Fin a → α := fun p => f (ValueIdx.ix1 p)

def mm {n k d : ℕ} (a : Fin n → Fin k → EReal) (b : Fin k → Fin d → EReal) : Fin n → Fin d → EReal :=
  fun i j => ∑ l : Fin k, a i l * b l j

/-- The inverse square root of a positive degree, and zero otherwise. -/
def dinvOf (d : EReal) : EReal := if 0 < d then Ideal.rsqrt d else 0

section Graph

variable (row col : Fin EE → BitVec 32) (ew : Fin EE → EReal)

/-- A node's degree: the weights of the edges that end at it, plus one for its own loop. -/
def deg : Fin NN → EReal := fun i => (∑ e : Fin EE, if hit (col e) i.val then ew e else 0) + 1

def dinv : Fin NN → EReal := fun i => dinvOf (deg col ew i)

/-- The symmetric normalisation of an edge's weight. -/
def nrm : Fin EE → EReal := fun e => dinv col ew (gnode (row e)) * ew e * dinv col ew (gnode (col e))

/-- The normalised messages of the edges that end at node `i`, summed. -/
def agg (h : Fin NN → Fin 64 → EReal) : Fin NN → Fin 64 → EReal :=
  fun i d => ∑ e : Fin EE, if hit (col e) i.val then h (gnode (row e)) d * nrm row col ew e else 0

/-- One graph convolution: the edges' messages, the node's own loop message and the bias, rectified. -/
def layer (h : Fin NN → Fin 64 → EReal) (b : Fin 64 → EReal) : Fin NN → Fin 64 → EReal :=
  fun i d => max (agg row col ew h i d + dinv col ew i * dinv col ew i * h i d + b d) 0

end Graph

section Pool

variable (bat : Fin NN → BitVec 32)

/-- Per graph, the sum of its nodes' rows, and (`cnt`) their number. -/
def pool (a : Fin NN → Fin 64 → EReal) : Fin GG → Fin 64 → EReal :=
  fun g d => ∑ i : Fin NN, if hit (bat i) g.val then a i d else 0

def cnt : Fin GG → EReal := fun g => ∑ i : Fin NN, if hit (bat i) g.val then 1 else 0

end Pool

/-- The mean per graph (a count of at least one) through a two-layer perceptron. -/
def head (pl : Fin GG → Fin 64 → EReal) (ct : Fin GG → EReal) (Wc1 : Fin 64 → Fin 32 → EReal) (bc1 : Fin 32 → EReal)
    (Wc2 : Fin 32 → Fin 10 → EReal) (bc2 : Fin 10 → EReal) : Fin GG → Fin 10 → EReal :=
  fun g j => mm (fun g' q => max (mm (fun g'' d => Ideal.div (pl g'' d) (max 1 (ct g''))) Wc1 g' q + bc1 q) 0) Wc2 g j + bc2 j

/-- The whole network: two convolutions, the mean per graph, the perceptron. -/
def out (row col : Fin EE → BitVec 32) (ew : Fin EE → EReal) (bat : Fin NN → BitVec 32)
    (x : Fin NN → Fin 128 → EReal) (W1 : Fin 128 → Fin 64 → EReal) (b1 : Fin 64 → EReal)
    (W2 : Fin 64 → Fin 64 → EReal) (b2 : Fin 64 → EReal) (Wc1 : Fin 64 → Fin 32 → EReal) (bc1 : Fin 32 → EReal)
    (Wc2 : Fin 32 → Fin 10 → EReal) (bc2 : Fin 10 → EReal) : Fin GG → Fin 10 → EReal :=
  head (pool bat (layer row col ew (mm (layer row col ew (mm x W1) b1) W2) b2)) (cnt bat) Wc1 bc1 Wc2 bc2

end GCN

end
-- ==== Proof.Val.Entry.lean ====
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.Val.Entry

open Idealize.ShloMosaic Idealize.ShloMosaic.ValueIdx
open scoped BigOperators

-- A function of a matrix index depends on the index through its two coordinates only.
theorem at_ix2 {α : Type} {m n : ℕ} (f : (⟨2, ![m, n]⟩ : Shape).Idx → α) {j : (⟨2, ![m, n]⟩ : Shape).Idx} {a : Fin m} {b : Fin n}
    (h0 : (j 0).val = a.val) (h1 : (j 1).val = b.val) : f j = f (ix2 a b) :=
  congrArg f (funext fun x => Fin.ext (by
    match x with
    | ⟨0, _⟩ => exact h0
    | ⟨1, _⟩ => exact h1))

-- Rows by columns into a zero accumulator: the sum over the contracted coordinate.
theorem mm_apply {m k n : ℕ} {φ₁ φ₂ : FTy} (l : FVec Ideal ⟨2, ![m, k]⟩ φ₁) (r : FVec Ideal ⟨2, ![k, n]⟩ φ₂) (p : Fin m) (q : Fin n) :
    matmul (DotDims.plain m k n) none l r (constant ⟨2, ![m, n]⟩ .f32 0x00000000#32) (ix2 p q) = ∑ c : Fin k, l (ix2 p c) * r (ix2 c q) :=
  (Ideal.matmul_constant_zero_apply _ none l r _).trans
    ((Ideal.dotGeneral_apply _ none _ l r _).symm.trans (StackMember.dotGeneral_plain_apply none l r p q))

abbrev dotT (m k n : ℕ) (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

-- Both operands contracted along their rows: the sum over the common row.
theorem mmT_apply {m k n : ℕ} {φ₁ φ₂ : FTy} (w : DotDims.WF ⟨2, ![k, m]⟩ ⟨2, ![k, n]⟩ ⟨2, ![m, n]⟩ [0] [0] [1] [1] [] [])
    (l : FVec Ideal ⟨2, ![k, m]⟩ φ₁) (r : FVec Ideal ⟨2, ![k, n]⟩ φ₂) (p : Fin m) (q : Fin n) :
    matmul (dotT m k n w) none l r (constant ⟨2, ![m, n]⟩ .f32 0x00000000#32) (ix2 p q) = ∑ c : Fin k, l (ix2 c p) * r (ix2 c q) := by
  refine (Ideal.matmul_constant_zero_apply _ none l r _).trans ?_
  rw [← Equiv.sum_comp (contrEquiv1 (dotT m k n w) k rfl rfl).symm]
  refine Finset.sum_congr rfl fun c _ => ?_
  have hc := contrEquiv1_symm_val (dotT m k n w) k rfl rfl c
  exact congrArg₂ (· * ·) (at_ix2 l hc rfl) (at_ix2 r hc rfl)

end Cert.KernelIdeal.Val.Entry

end
-- ==== Proof.Val.R0.lean ====
import proofs.«403409_j10926396801662_3_alg».proof.Proof.KI.Region0
import proofs.«403409_j10926396801662_3_alg».proof.Proof.Spec
import proofs.«403409_j10926396801662_3_alg».proof.Proof.Val.Entry
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

theorem payload0_apply (x0 : Vec Ideal S10000x128 .f32) (x1 : Vec Ideal S128x64 .f32) (p : Fin 10000) (q : Fin 64) :
    (k0_pay1 (F := Ideal) x0 x1) (ix2 p q) = ∑ k : Fin 128, x0 (ix2 p k) * x1 (ix2 k q) := by
  unfold k0_pay1
  exact Entry.mm_apply _ _ p q

variable (V : (c : Dev nD) → (b : Ref sig .tc) → Buf (Elt Ideal) ((c : Thread nD τ).loc b))

theorem origin0 : (![0, 0] : Fin 2 → Nat) = fun _ => 0 := funext fun a => by fin_cases a <;> rfl

abbrev prod0 (a0 : S100000x128.Idx → EReal) (a1 : S128x64.Idx → EReal) : S100000x64.Idx → EReal :=
  fun i => GCN.mm (GCN.A2 a0) (GCN.A2 a1) (i 0) (i 1)

theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem xRows_apply (c : Dev nD) (t : Fin cfg0.N) (p : Fin 10000) (k : Fin 128) (r : Fin 100000)
    (hr : r.val = t.val * 10000 + p.val) :
    (Hand.iblk0 V c 0 t : Vec Ideal S10000x128 .f32) (ix2 p k) = (V c main_arg0 : S100000x128.Idx → EReal) (ix2 r k) := by
  obtain ⟨e0, e1, -⟩ := block_index0 t
  unfold Hand.iblk0
  rw [View.read_apply]
  refine Entry.at_ix2 (V c main_arg0 : S100000x128.Idx → EReal) ?_ ?_
  · show win0_0.index t (0 : Fin 2) * 10000 + 1 * p.val = r.val; rw [e0, hr]; omega
  · show win0_0.index t (1 : Fin 2) * 128 + 1 * k.val = k.val; rw [e1]; omega

theorem w1_apply (c : Dev nD) (t : Fin cfg0.N) (k : Fin 128) (q : Fin 64) :
    (Hand.iblk0 V c 1 t : Vec Ideal S128x64 .f32) (ix2 k q) = (V c main_arg4 : S128x64.Idx → EReal) (ix2 k q) := by
  obtain ⟨-, -, e0, e1, -⟩ := block_index0 t
  unfold Hand.iblk0
  rw [View.read_apply]
  refine Entry.at_ix2 (V c main_arg4 : S128x64.Idx → EReal) ?_ ?_
  · show win0_1.index t (0 : Fin 2) * 128 + 1 * k.val = k.val; rw [e0]; omega
  · show win0_1.index t (1 : Fin 2) * 64 + 1 * q.val = q.val; rw [e1]; omega

theorem writeback0 (c : Dev nD) (t : Fin cfg0.N) :
    (Hand.dat0 V c).flushed 2 t = ((cfg0.win 2).blk t).view.read (Elt Ideal) (prod0 (V c main_arg0) (V c main_arg4)) := by
  show (cfg0.win 2).cut (grid0.coords t) ((Hand.dat0 V c).after 2 t) = _
  rw [Hand.after0_2]
  unfold Hand.out0_2
  rw [View.canon_unit_zero origin0]
  simp only [View.ld_unit_zero (S := S10000x128) origin0, View.ld_unit_zero (S := S128x64) origin0]
  obtain ⟨-, -, -, -, e0, e1⟩ := block_index0 t
  funext j
  obtain ⟨p, q, rfl⟩ : ∃ (p : Fin 10000) (q : Fin 64), j = ix2 p q := ⟨j 0, j 1, eq_ix2 j⟩
  have hrow : ((((cfg0.win 2).blk t).view.emb (ix2 p q)) 0).val = t.val * 10000 + p.val := by
    show win0_2.index t (0 : Fin 2) * 10000 + 1 * p.val = _
    rw [e0]; omega
  have hcol : ((((cfg0.win 2).blk t).view.emb (ix2 p q)) 1).val = q.val := by
    show win0_2.index t (1 : Fin 2) * 64 + 1 * q.val = _
    rw [e1]; omega
  refine (payload0_apply _ _ p q).trans ?_
  show _ = GCN.mm (GCN.A2 (V c main_arg0)) (GCN.A2 (V c main_arg4)) ((((cfg0.win 2).blk t).view.emb (ix2 p q)) 0) ((((cfg0.win 2).blk t).view.emb (ix2 p q)) 1)
  unfold GCN.mm
  refine Finset.sum_congr rfl fun k _ => ?_
  exact congrArg₂ (· * ·) (xRows_apply V c t p k _ hrow)
    ((w1_apply V c t k q).trans (Entry.at_ix2 (V c main_arg4 : S128x64.Idx → EReal) rfl hcol.symm))

theorem rows_cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e0, e1⟩ := block_index0 t
  refine ⟨t, flush0_2 t, ?_⟩
  show i ∈ ((View.whole main_v54).slice (win0_2.rect t)).set
  rw [View.set_slice_whole, Rect.mem_set_unit]
  intro a
  match a with
  | ⟨0, _⟩ =>
    show win0_2.index t (0 : Fin 2) * 10000 ≤ (i 0).val ∧ (i 0).val < win0_2.index t (0 : Fin 2) * 10000 + 10000
    rw [e0]; show (i 0).val / 10000 * 10000 ≤ (i 0).val ∧ (i 0).val < (i 0).val / 10000 * 10000 + 10000; omega
  | ⟨1, _⟩ =>
    show win0_2.index t (1 : Fin 2) * 64 ≤ (i 1).val ∧ (i 1).val < win0_2.index t (1 : Fin 2) * 64 + 64
    rw [e1]; omega

theorem r0_value (c : Dev nD) (p : Fin 100000) (q : Fin 64) :
    (Hand.dat0 V c).arrAt 2 cfg0.N (ix2 p q) = GCN.mm (GCN.A2 (V c main_arg0)) (GCN.A2 (V c main_arg4)) p q :=
  congrFun ((Hand.dat0 V c).arrAt_eq_of_cover 2 (prod0 (V c main_arg0) (V c main_arg4)) (fun t _ => writeback0 V c t) rows_cover0) (ix2 p q)

end Cert.KernelIdeal.Val

end
-- ==== Proof.LibWords.lean ====
import Idealize.ShloMosaic.PureOps.IdealRules
import Idealize.ShloMosaic.Lib.StableHlo.Predicate
import Idealize.ShloMosaic.Lib.ValueLayout
import proofs.«403409_j10926396801662_3_alg».proof.Proof.Spec

noncomputable section

namespace Words

open Idealize.ShloMosaic Idealize.ShloMosaic.ValueIdx GCN

theorem toInt_ofNat (j : ℕ) (hj : j < 2 ^ 31) : (BitVec.ofNat 32 j).toInt = (j : ℤ) :=
  StableHlo.Predicate.toInt_ofNat_small j hj

theorem hit_ofNat (j i : ℕ) (hj : j < 2 ^ 31) : hit (BitVec.ofNat 32 j) i ↔ j = i := by
  unfold hit
  rw [toInt_ofNat j hj]
  exact Int.natCast_inj

-- A word is determined by its signed reading.
theorem hit_iff_eq_ofNat (v : BitVec 32) (i : ℕ) (hi : i < 2 ^ 31) : hit v i ↔ v = BitVec.ofNat 32 i := by
  constructor
  · intro h
    unfold hit at h
    rw [← BitVec.ofInt_toInt (x := v), h, BitVec.ofInt_natCast]
  · intro h
    rw [h]
    exact (hit_ofNat i i hi).mpr rfl

theorem wrap_select_word (n : ℕ) (v : BitVec 32) :
    Scalar.select (IntOp.cmpi .slt v 0#32) (IntOp.addi v (BitVec.ofNat 32 n)) v = wrap n v := by
  show (if BitVec.ofBool (v.slt 0#32) = 1 then v + BitVec.ofNat 32 n else v)
      = if v.slt 0#32 = true then v + BitVec.ofNat 32 n else v
  exact if_congr (StableHlo.Predicate.ofBool_eq_one_iff _) rfl rfl

theorem wrap_select {s : Shape} (n : ℕ) (x z c : IVec s 32) (i : s.Idx) (hz : z i = 0#32) (hc : c i = BitVec.ofNat 32 n) :
    select (cmpi .slt x z) (addi x c) x i = wrap n (x i) := by
  show Scalar.select (IntOp.cmpi .slt (x i) (z i)) (IntOp.addi (x i) (c i)) (x i) = wrap n (x i)
  rw [hz, hc]
  exact wrap_select_word n (x i)

theorem node_of_wrapped (n : ℕ) (hn : 0 < n) (v w : BitVec 32) (hw : w = wrap n v) (h : min w.toInt.toNat (n - 1) < n) :
    (⟨min w.toInt.toNat (n - 1), h⟩ : Fin n) = node n hn v := by
  subst hw
  rfl

-- The word of a row number is not negative, so it is kept by the wrap, and it is inside the table, so it is not cut off.
theorem node_ofNat (n : ℕ) (hn : 0 < n) (hn31 : n ≤ 2 ^ 31 - 1) (j : ℕ) (hj : j < n) :
    node n hn (BitVec.ofNat 32 j) = ⟨j, hj⟩ := by
  have ht : (BitVec.ofNat 32 j).toInt = (j : ℤ) := toInt_ofNat j (by omega)
  have hw : wrap n (BitVec.ofNat 32 j) = BitVec.ofNat 32 j := if_neg (by
    rw [BitVec.slt, decide_eq_true_eq, ht]
    have h0 : (0#32).toInt = 0 := by decide
    omega)
  apply Fin.ext
  show min (wrap n (BitVec.ofNat 32 j)).toInt.toNat (n - 1) = j
  rw [hw, ht, Int.toNat_natCast]
  omega

theorem ofBits_one_f32 : Ideal.ofBits .f32 0x3F800000#32 = 1 := IdealRules.sign_bit.ideal_onePat .f32

theorem ofBits_one_bf16 : Ideal.ofBits .bf16 0x3F80#16 = 1 := IdealRules.sign_bit.ideal_onePat .bf16

theorem ofBits_zero_f32 : Ideal.ofBits .f32 0x00000000#32 = 0 := IdealRules.sign_bit.ideal_zero .f32

theorem ofBits_zero_bf16 : Ideal.ofBits .bf16 0x0000#16 = 0 := IdealRules.sign_bit.ideal_zero .bf16

theorem constant_one_f32 {s : Shape} (i : s.Idx) : constant (F := Ideal) s .f32 0x3F800000#32 i = 1 := ofBits_one_f32

theorem constant_zero_f32 {s : Shape} (i : s.Idx) : constant (F := Ideal) s .f32 0x00000000#32 i = 0 := ofBits_zero_f32

theorem dinvOf_select_word (d : EReal) : Scalar.select (Ideal.cmp .ogt d 0) (Ideal.rsqrt d) 0 = dinvOf d := by
  show (if BitVec.ofBool (decide (0 < d)) = 1 then Ideal.rsqrt d else 0) = if 0 < d then Ideal.rsqrt d else 0
  exact if_congr ((StableHlo.Predicate.ofBool_eq_one_iff _).trans decide_eq_true_iff) rfl rfl

theorem dinvOf_select_rsqrt {s : Shape} (x z w : FVec Ideal s .f32) (i : s.Idx) (hz : z i = 0) (hw : w i = 0) :
    select (cmpf .ogt x z) (Host.rsqrt x) w i = dinvOf (x i) := by
  show Scalar.select (Ideal.cmp .ogt (x i) (z i)) (Ideal.rsqrt (x i)) (w i) = dinvOf (x i)
  rw [hz, hw]
  exact dinvOf_select_word (x i)

-- The test's bit widens to the word 1 or 0, whose signed reading is the real 1 or 0.
theorem onehot_entry_word (a b : BitVec 32) :
    (FloatOps.sitofp (F := Ideal) .f32 ((IntOp.cmpi .eq a b).setWidth 32) : EReal) = if a = b then 1 else 0 := by
  show ((((BitVec.ofBool (a == b)).setWidth 32).toInt : ℝ) : EReal) = if a = b then 1 else 0
  by_cases h : a = b
  · rw [if_pos h, beq_iff_eq.mpr h]
    have e : ((BitVec.ofBool true).setWidth 32).toInt = 1 := by decide
    rw [e]
    norm_num
  · rw [if_neg h, beq_eq_false_iff_ne.mpr h]
    have e : ((BitVec.ofBool false).setWidth 32).toInt = 0 := by decide
    rw [e]
    norm_num

theorem onehot_entry {s : Shape} (x y : IVec s 32) (h : 1 < 32) (i : s.Idx) :
    (sitofp .f32 (extui 32 (cmpi .eq x y) h) : FVec Ideal s .f32) i = if x i = y i then 1 else 0 :=
  onehot_entry_word (x i) (y i)

theorem onehot_entry_bf16 {s : Shape} (x y : IVec s 32) (h : 1 < 32) (h' : FTy.bf16.bits < FTy.f32.bits) (i : s.Idx) :
    (truncf .bf16 (sitofp .f32 (extui 32 (cmpi .eq x y) h) : FVec Ideal s .f32) h' : FVec Ideal s .bf16) i
      = if x i = y i then 1 else 0 :=
  onehot_entry_word (x i) (y i)

theorem onehot_hit {s : Shape} (x y : IVec s 32) (h : 1 < 32) (i : s.Idx) (g : ℕ) (hg : g < 2 ^ 31) (hy : y i = BitVec.ofNat 32 g) :
    (sitofp .f32 (extui 32 (cmpi .eq x y) h) : FVec Ideal s .f32) i = if hit (x i) g then 1 else 0 := by
  rw [onehot_entry x y h i, hy]
  exact if_congr (hit_iff_eq_ofNat (x i) g hg).symm rfl rfl

theorem onehot_hit_bf16 {s : Shape} (x y : IVec s 32) (h : 1 < 32) (h' : FTy.bf16.bits < FTy.f32.bits) (i : s.Idx) (g : ℕ)
    (hg : g < 2 ^ 31) (hy : y i = BitVec.ofNat 32 g) :
    (truncf .bf16 (sitofp .f32 (extui 32 (cmpi .eq x y) h) : FVec Ideal s .f32) h' : FVec Ideal s .bf16) i
      = if hit (x i) g then 1 else 0 :=
  onehot_hit x y h i g hg hy

section Layout
variable {α : Type}

-- A coordinate on an axis of extent one is zero.
theorem val_eq_ite {n : ℕ} (p : Fin n) : p.val = if n = 1 then 0 else p.val := by
  split
  · have := p.isLt; omega
  · rfl

theorem bcast_scalar_apply {t : Shape} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

theorem bcast_col_apply {n : ℕ} (h : (⟨1, ![n]⟩ : Shape).BroadcastsInDim ⟨2, ![n, 1]⟩ ![0]) (x : (⟨1, ![n]⟩ : Shape).Idx → α)
    (p : Fin n) (u : Fin 1) : broadcastInDim ⟨2, ![n, 1]⟩ ![0] h x (ix2 p u) = x (ix1 p) := by
  refine broadcastInDim_apply ![0] h x (ix2 p u) (ix1 p) fun a => ?_
  match a with
  | ⟨0, _⟩ => exact val_eq_ite p

theorem bcast_of_col_apply {n m : ℕ} (h : (⟨2, ![n, 1]⟩ : Shape).BroadcastsInDim ⟨2, ![n, m]⟩ ![0, 1])
    (x : (⟨2, ![n, 1]⟩ : Shape).Idx → α) (p : Fin n) (q : Fin m) :
    broadcastInDim ⟨2, ![n, m]⟩ ![0, 1] h x (ix2 p q) = x (ix2 p (0 : Fin 1)) := by
  refine broadcastInDim_apply ![0, 1] h x (ix2 p q) (ix2 p (0 : Fin 1)) fun a => ?_
  match a with
  | ⟨0, _⟩ => exact val_eq_ite p
  | ⟨1, _⟩ => rfl

-- Both indices sit at row-major position `p`.
theorem shapeCast_a_a1_apply {n : ℕ} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun ax => match ax with
    | ⟨0, _⟩ => val_eq_ite p
    | ⟨1, _⟩ => rfl

end Layout

end Words

end
-- ==== Proof.Val.R1.lean ====
import proofs.«403409_j10926396801662_3_alg».proof.Proof.KI.Region1
import proofs.«403409_j10926396801662_3_alg».proof.Proof.Spec
import proofs.«403409_j10926396801662_3_alg».proof.Proof.LibWords
import proofs.«403409_j10926396801662_3_alg».proof.Proof.Val.Entry
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

theorem payload1_apply (x0 : Vec Ideal S5000x64 .f32) (x2 : Vec Ideal S5000x1 .f32) (x4 : Vec Ideal S5000x64 .bf16) (x10 : Vec Ideal S1x64 .f32) (x17 : Vec Ideal S64x64 .f32) (p : Fin 5000) (q : Fin 64) :
    (k1_pay1 (F := Ideal) x0 x2 x4 x10 x17) (ix2 p q)
      = ∑ k : Fin 64, max (x0 (ix2 p k) + x2 (ix2 p (0 : Fin 1)) * x4 (ix2 p k) + x10 (ix2 (0 : Fin 1) k)) 0 * x17 (ix2 k q) := by
  unfold k1_pay1
  refine (Entry.mm_apply _ _ p q).trans (Finset.sum_congr rfl fun k _ => congrArg (· * x17 (ix2 k q)) ?_)
  rw [shapeCast_self, shapeCast_self, shapeCast_self, shapeCast_self]
  show max (x0 (ix2 p k) + broadcastTo S5000x64 x2 broadcasts_S5000x1_S5000x64 (ix2 p k) * x4 (ix2 p k) + broadcastTo S5000x64 x10 broadcasts_S1x64_S5000x64 (ix2 p k)) (Ideal.ofBits .f32 0x00000000#32) = _
  rw [Words.broadcastTo_a1_ab_apply, broadcastTo_1b_ab_apply, Ideal.ofBits_zero_f32]

variable (V : (c : Dev nD) → (b : Ref sig .tc) → Buf (Elt Ideal) ((c : Thread nD τ).loc b))

theorem origin1 : (![0, 0] : Fin 2 → Nat) = fun _ => 0 := funext fun a => by fin_cases a <;> rfl

abbrev act1 (a0 a1 : S100000x64.Idx → EReal) (a2 : S100000x1.Idx → EReal) (a3 : S1x64.Idx → EReal) : Fin 100000 → Fin 64 → EReal :=
  fun i d => max (GCN.A2 a0 i d + a2 (ix2 i (0 : Fin 1)) * GCN.A2 a1 i d + a3 (ix2 (0 : Fin 1) d)) 0

abbrev prod1 (a0 a1 : S100000x64.Idx → EReal) (a2 : S100000x1.Idx → EReal) (a3 : S1x64.Idx → EReal) (a4 : S64x64.Idx → EReal) : S100000x64.Idx → EReal :=
  fun i => GCN.mm (act1 a0 a1 a2 a3) (GCN.A2 a4) (i 0) (i 1)

theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem edges_apply (c : Dev nD) (t : Fin cfg1.N) (p : Fin 5000) (k : Fin 64) (r : Fin 100000)
    (hr : r.val = t.val * 5000 + p.val) :
    (Hand.iblk1 V c 0 t : Vec Ideal S5000x64 .f32) (ix2 p k) = (V c main_v68 : S100000x64.Idx → EReal) (ix2 r k) := by
  obtain ⟨e0, e1, -⟩ := block_index1 t
  unfold Hand.iblk1
  rw [View.read_apply]
  refine Entry.at_ix2 (V c main_v68 : S100000x64.Idx → EReal) ?_ ?_
  · show win1_0.index t (0 : Fin 2) * 5000 + 1 * p.val = r.val; rw [e0, hr]; omega
  · show win1_0.index t (1 : Fin 2) * 64 + 1 * k.val = k.val; rw [e1]; omega

theorem hpre_apply (c : Dev nD) (t : Fin cfg1.N) (p : Fin 5000) (k : Fin 64) (r : Fin 100000)
    (hr : r.val = t.val * 5000 + p.val) :
    (Hand.iblk1 V c 1 t : Vec Ideal S5000x64 .bf16) (ix2 p k) = (V c main_v54 : S100000x64.Idx → EReal) (ix2 r k) := by
  obtain ⟨-, -, e0, e1, -⟩ := block_index1 t
  unfold Hand.iblk1
  rw [View.read_apply]
  refine Entry.at_ix2 (V c main_v54 : S100000x64.Idx → EReal) ?_ ?_
  · show win1_1.index t (0 : Fin 2) * 5000 + 1 * p.val = r.val; rw [e0, hr]; omega
  · show win1_1.index t (1 : Fin 2) * 64 + 1 * k.val = k.val; rw [e1]; omega

theorem dinv2_apply (c : Dev nD) (t : Fin cfg1.N) (p : Fin 5000) (r : Fin 100000)
    (hr : r.val = t.val * 5000 + p.val) :
    (Hand.iblk1 V c 2 t : Vec Ideal S5000x1 .f32) (ix2 p (0 : Fin 1)) = (V c main_v14 : S100000x1.Idx → EReal) (ix2 r (0 : Fin 1)) := by
  obtain ⟨-, -, -, -, e0, e1, -⟩ := block_index1 t
  unfold Hand.iblk1
  rw [View.read_apply]
  refine Entry.at_ix2 (V c main_v14 : S100000x1.Idx → EReal) ?_ ?_
  · show win1_2.index t (0 : Fin 2) * 5000 + 1 * p.val = r.val; rw [e0, hr]; omega
  · show win1_2.index t (1 : Fin 2) * 1 + 1 * 0 = 0; rw [e1]

theorem bias_apply (c : Dev nD) (t : Fin cfg1.N) (k : Fin 64) :
    (Hand.iblk1 V c 3 t : Vec Ideal S1x64 .f32) (ix2 (0 : Fin 1) k) = (V c main_v69 : S1x64.Idx → EReal) (ix2 (0 : Fin 1) k) := by
  obtain ⟨-, -, -, -, -, -, e0, e1, -⟩ := block_index1 t
  unfold Hand.iblk1
  rw [View.read_apply]
  refine Entry.at_ix2 (V c main_v69 : S1x64.Idx → EReal) ?_ ?_
  · show win1_3.index t (0 : Fin 2) * 1 + 1 * 0 = 0; rw [e0]
  · show win1_3.index t (1 : Fin 2) * 64 + 1 * k.val = k.val; rw [e1]; omega

theorem w2_apply (c : Dev nD) (t : Fin cfg1.N) (k : Fin 64) (q : Fin 64) :
    (Hand.iblk1 V c 4 t : Vec Ideal S64x64 .f32) (ix2 k q) = (V c main_arg6 : S64x64.Idx → EReal) (ix2 k q) := by
  obtain ⟨-, -, -, -, -, -, -, -, e0, e1, -⟩ := block_index1 t
  unfold Hand.iblk1
  rw [View.read_apply]
  refine Entry.at_ix2 (V c main_arg6 : S64x64.Idx → EReal) ?_ ?_
  · show win1_4.index t (0 : Fin 2) * 64 + 1 * k.val = k.val; rw [e0]; omega
  · show win1_4.index t (1 : Fin 2) * 64 + 1 * q.val = q.val; rw [e1]; omega

theorem writeback1 (c : Dev nD) (t : Fin cfg1.N) :
    (Hand.dat1 V c).flushed 5 t = ((cfg1.win 5).blk t).view.read (Elt Ideal)
      (prod1 (V c main_v68) (V c main_v54) (V c main_v14) (V c main_v69) (V c main_arg6)) := by
  show (cfg1.win 5).cut (grid1.coords t) ((Hand.dat1 V c).after 5 t) = _
  rw [Hand.after1_5]
  unfold Hand.out1_5
  rw [View.canon_unit_zero origin1]
  simp only [View.ld_unit_zero (S := S5000x64) origin1, View.ld_unit_zero (S := S5000x1) origin1, View.ld_unit_zero (S := S1x64) origin1, View.ld_unit_zero (S := S64x64) origin1]
  obtain ⟨-, -, -, -, -, -, -, -, -, -, e0, e1⟩ := block_index1 t
  funext j
  obtain ⟨p, q, rfl⟩ : ∃ (p : Fin 5000) (q : Fin 64), j = ix2 p q := ⟨j 0, j 1, eq_ix2 j⟩
  have hrow : ((((cfg1.win 5).blk t).view.emb (ix2 p q)) 0).val = t.val * 5000 + p.val := by
    show win1_5.index t (0 : Fin 2) * 5000 + 1 * p.val = _
    rw [e0]; omega
  have hcol : ((((cfg1.win 5).blk t).view.emb (ix2 p q)) 1).val = q.val := by
    show win1_5.index t (1 : Fin 2) * 64 + 1 * q.val = _
    rw [e1]; omega
  refine (payload1_apply _ _ _ _ _ p q).trans ?_
  show _ = GCN.mm (act1 (V c main_v68) (V c main_v54) (V c main_v14) (V c main_v69)) (GCN.A2 (V c main_arg6))
    ((((cfg1.win 5).blk t).view.emb (ix2 p q)) 0) ((((cfg1.win 5).blk t).view.emb (ix2 p q)) 1)
  unfold GCN.mm
  refine Finset.sum_congr rfl fun k _ => ?_
  exact congrArg₂ (· * ·) (congrArg (max · 0) (congrArg₂ (· + ·) (congrArg₂ (· + ·) (edges_apply V c t p k _ hrow)
      (congrArg₂ (· * ·) (dinv2_apply V c t p _ hrow) (hpre_apply V c t p k _ hrow))) (bias_apply V c t k)))
    ((w2_apply V c t k q).trans (Entry.at_ix2 (V c main_arg6 : S64x64.Idx → EReal) rfl hcol.symm))

theorem rows_cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, e0, e1⟩ := block_index1 t
  refine ⟨t, flush1_5 t, ?_⟩
  show i ∈ ((View.whole main_v70).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e0]; show (i 0).val / 5000 * 5000 ≤ (i 0).val ∧ (i 0).val < (i 0).val / 5000 * 5000 + 5000; omega
  | ⟨1, _⟩ =>
    show win1_5.index t (1 : Fin 2) * 64 ≤ (i 1).val ∧ (i 1).val < win1_5.index t (1 : Fin 2) * 64 + 64
    rw [e1]; omega

theorem r1_value (c : Dev nD) (p : Fin 100000) (q : Fin 64) :
    (Hand.dat1 V c).arrAt 5 cfg1.N (ix2 p q)
      = GCN.mm (act1 (V c main_v68) (V c main_v54) (V c main_v14) (V c main_v69)) (GCN.A2 (V c main_arg6)) p q :=
  congrFun ((Hand.dat1 V c).arrAt_eq_of_cover 5 (prod1 (V c main_v68) (V c main_v54) (V c main_v14) (V c main_v69) (V c main_arg6))
    (fun t _ => writeback1 V c t) rows_cover1) (ix2 p q)

end Cert.KernelIdeal.Val

end
-- ==== Proof.Val.R2Algebra.lean ====
import proofs.«403409_j10926396801662_3_alg».proof.Proof.Gen.KernelIdeal.Skeleton
import proofs.«403409_j10926396801662_3_alg».proof.Proof.Spec
import proofs.«403409_j10926396801662_3_alg».proof.Proof.LibWords
import proofs.«403409_j10926396801662_3_alg».proof.Proof.Val.Entry
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Val.R2
open Idealize.ShloMosaic Idealize.ShloMosaic.ValueIdx Cert.KernelIdeal Cert.KernelIdeal.Gen
open scoped BigOperators

theorem pay5_apply (v19 : Vec Ideal S5000x1 .i32) (r : Fin 5000) (g : Fin 128) :
    k2_pay5 (F := Ideal) v19 (ix2 r g) = if v19 (ix2 r (0 : Fin 1)) = BitVec.ofNat 32 g.val then 1 else 0 := by
  unfold k2_pay5
  show FloatOps.sitofp (F := Ideal) .f32 ((IntOp.cmpi .eq _ _).setWidth 32) = _
  rw [Words.onehot_entry_word, Words.broadcastTo_a1_ab_apply, shapeCast_self, iota_single_apply]

theorem mmT64_apply (l : FVec Ideal S5000x128 .bf16) (r : FVec Ideal S5000x64 .bf16) (p : Fin 128) (q : Fin 64) :
    matmul dot_S5000x128_S5000x64_S128x64_0_0_1_1_n_n none l r (constant S128x64 .f32 0x00000000#32) (ix2 p q)
      = ∑ k : Fin 5000, l (ix2 k p) * r (ix2 k q) :=
  Entry.mmT_apply _ l r p q

theorem mmT1_apply (l : FVec Ideal S5000x128 .bf16) (r : FVec Ideal S5000x1 .bf16) (p : Fin 128) (q : Fin 1) :
    matmul dot_S5000x128_S5000x1_S128x1_0_0_1_1_n_n none l r (constant S128x1 .f32 0x00000000#32) (ix2 p q)
      = ∑ k : Fin 5000, l (ix2 k p) * r (ix2 k q) :=
  Entry.mmT_apply _ l r p q

theorem mmH1_apply (l : FVec Ideal S128x64 .bf16) (r : FVec Ideal S64x32 .bf16) (p : Fin 128) (q : Fin 32) :
    matmul dot_S128x64_S64x32_S128x32_1_0_0_1_n_n none l r (constant S128x32 .f32 0x00000000#32) (ix2 p q)
      = ∑ k : Fin 64, l (ix2 p k) * r (ix2 k q) :=
  Entry.mm_apply l r p q

theorem mmH2_apply (l : FVec Ideal S128x32 .bf16) (r : FVec Ideal S32x10 .bf16) (p : Fin 128) (q : Fin 10) :
    matmul dot_S128x32_S32x10_S128x10_1_0_0_1_n_n none l r (constant S128x10 .f32 0x00000000#32) (ix2 p q)
      = ∑ k : Fin 32, l (ix2 p k) * r (ix2 k q) :=
  Entry.mm_apply l r p q

theorem pay7_apply (v3 : Vec Ideal S5000x64 .f32) (v5 : Vec Ideal S5000x1 .f32) (v7 : Vec Ideal S5000x64 .bf16)
    (v13 : Vec Ideal S1x64 .f32) (v19 : Vec Ideal S5000x1 .i32) (v31 : Vec Ideal S128x64 .f32) (g : Fin 128) (d : Fin 64) :
    k2_pay7 (F := Ideal) v3 v5 v7 v13 v19 v31 (ix2 g d)
      = v31 (ix2 g d) + ∑ r : Fin 5000, (if v19 (ix2 r (0 : Fin 1)) = BitVec.ofNat 32 g.val then (1 : EReal) else 0)
          * max (v3 (ix2 r d) + v5 (ix2 r (0 : Fin 1)) * v7 (ix2 r d) + v13 (ix2 (0 : Fin 1) d)) 0 := by
  unfold k2_pay7
  simp only [shapeCast_self, addf_apply, mmT64_apply, pay5_apply, truncf_apply, maximumf_apply, mulf_apply, extf_apply,
    Words.broadcastTo_a1_ab_apply, broadcastTo_1b_ab_apply, broadcast_apply, Ideal.ofBits_def, Ideal.ofBits_zero_f32]

theorem pay6_apply (v19 : Vec Ideal S5000x1 .i32) (g : Fin 128) (z : Fin 1) :
    k2_pay6 (F := Ideal) v19 (ix2 g z) = ∑ r : Fin 5000, if v19 (ix2 r (0 : Fin 1)) = BitVec.ofNat 32 g.val then (1 : EReal) else 0 := by
  unfold k2_pay6
  simp only [mmT1_apply, pay5_apply, broadcast_apply, Ideal.ofBits_def, Words.ofBits_one_bf16, mul_one]

theorem pay1_apply (v30 : FVec Ideal S128x1 .f32) (v36 : Vec Ideal S128x1 .f32) (g : Fin 128) (z : Fin 1) :
    k2_pay1 (F := Ideal) v30 v36 (ix2 g z) = v36 (ix2 g z) + v30 (ix2 g z) := by
  unfold k2_pay1
  simp only [shapeCast_self, addf_apply]

theorem pay3_apply (g : Fin 128) (d : Fin 64) : k2_pay3 (F := Ideal) (ix2 g d) = 0 := by
  unfold k2_pay3
  simp only [shapeCast_self, broadcast_apply]
  exact Ideal.ofBits_zero_f32

theorem pay4_apply (g : Fin 128) (z : Fin 1) : k2_pay4 (F := Ideal) (ix2 g z) = 0 := by
  unfold k2_pay4
  simp only [shapeCast_self, broadcast_apply]
  exact Ideal.ofBits_zero_f32

theorem pay2_apply (v44 : Vec Ideal S128x64 .f32) (v45 : Vec Ideal S128x1 .f32) (v51 : Vec Ideal S64x32 .f32)
    (v54 : Vec Ideal S1x32 .f32) (v61 : Vec Ideal S32x10 .f32) (v64 : Vec Ideal S1x10 .f32) (g : Fin 128) (j : Fin 10) :
    k2_pay2 (F := Ideal) v44 v45 v51 v54 v61 v64 (ix2 g j)
      = GCN.head (GCN.A2 v44) (fun g' => v45 (ix2 g' (0 : Fin 1))) (GCN.A2 v51) (fun q => v54 (ix2 (0 : Fin 1) q))
          (GCN.A2 v61) (fun q => v64 (ix2 (0 : Fin 1) q)) g j := by
  unfold k2_pay2
  simp only [shapeCast_self, addf_apply, mmH1_apply, mmH2_apply, truncf_apply, maximumf_apply, divf_apply,
    Words.broadcastTo_a1_ab_apply, broadcastTo_1b_ab_apply, broadcast_apply, Ideal.ofBits_def, Ideal.ofBits_zero_f32, Words.ofBits_one_f32]
  rfl

def row (n : ℕ) (hn : n < 20) (r : Fin 5000) : Fin 100000 := ⟨5000 * n + r.val, by have := r.isLt; omega⟩

def pre (f : Fin 100000 → EReal) (n : ℕ) : EReal :=
  ∑ i ∈ Finset.range (5000 * n), if h : i < 100000 then f ⟨i, h⟩ else 0

theorem pre_zero (f : Fin 100000 → EReal) : pre f 0 = 0 := by
  unfold pre
  rw [Nat.mul_zero, Finset.range_zero, Finset.sum_empty]

theorem pre_succ (f : Fin 100000 → EReal) (n : ℕ) (hn : n < 20) :
    pre f (n + 1) = pre f n + ∑ r : Fin 5000, f (row n hn r) := by
  unfold pre
  rw [show 5000 * (n + 1) = 5000 * n + 5000 from by ring, Finset.sum_range_add]
  refine congrArg (_ + ·) ?_
  rw [Finset.sum_range]
  refine Finset.sum_congr rfl fun r _ => ?_
  have h : 5000 * n + r.val < 100000 := by have := r.isLt; omega
  rw [dif_pos h]
  rfl

theorem pre_full (f : Fin 100000 → EReal) : pre f 20 = ∑ i, f i := by
  unfold pre
  rw [show 5000 * 20 = 100000 from by norm_num, Finset.sum_range]
  exact Finset.sum_congr rfl fun i _ => by rw [dif_pos i.isLt]

theorem pool_eq (bat : Fin 100000 → BitVec 32) (a : Fin 100000 → Fin 64 → EReal) (g : Fin 128) (d : Fin 64) :
    (∑ i : Fin 100000, (if bat i = BitVec.ofNat 32 g.val then (1 : EReal) else 0) * a i d) = GCN.pool bat a g d := by
  unfold GCN.pool
  refine Finset.sum_congr rfl fun i _ => ?_
  rw [ite_mul, one_mul, zero_mul]
  exact if_congr (Words.hit_iff_eq_ofNat _ _ (by have := g.isLt; omega)).symm rfl rfl

theorem cnt_eq (bat : Fin 100000 → BitVec 32) (g : Fin 128) :
    (∑ i : Fin 100000, if bat i = BitVec.ofNat 32 g.val then (1 : EReal) else 0) = GCN.cnt bat g := by
  unfold GCN.cnt
  exact Finset.sum_congr rfl fun i _ => if_congr (Words.hit_iff_eq_ofNat _ _ (by have := g.isLt; omega)).symm rfl rfl

end Cert.KernelIdeal.Val.R2
end
-- ==== Proof.Val.R2Blocks.lean ====
import proofs.«403409_j10926396801662_3_alg».proof.Proof.KI.Region2Runs
import proofs.«403409_j10926396801662_3_alg».proof.Proof.Val.Entry
import Idealize.ShloMosaic.Lib.Pipeline.Value
import Idealize.ShloMosaic.Lib.ValueIdx

noncomputable section

namespace Cert.KernelIdeal.Val.R2

open Idealize.ShloMosaic Idealize.ShloMosaic.TcCoe Idealize.ShloMosaic.ValueIdx Idealize.SL.Sem
open Cert.KernelIdeal Cert.KernelIdeal.Gen

theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

variable (V : (c : Dev nD) → (b : Ref sig .tc) → Buf (Elt Ideal) ((c : Thread nD τ).loc b))

theorem blk2_0_apply (c : Dev nD) (t : Fin cfg2.N) (r : Fin 5000) (q : Fin 64) (i : Fin 100000)
    (hi : i.val = 5000 * t.val + r.val) :
    (Hand.iblk2 V c 0 t : Vec Ideal S5000x64 .f32) (ix2 r q) = (V c main_v84 : S100000x64.Idx → EReal) (ix2 i q) := by
  obtain ⟨e0, e1⟩ := (idx2 t).1
  unfold Hand.iblk2
  rw [View.read_apply]
  refine Entry.at_ix2 (V c main_v84 : S100000x64.Idx → EReal) ?_ ?_
  · show win2_0.index t (0 : Fin 2) * 5000 + 1 * r.val = i.val; rw [e0, hi]; omega
  · show win2_0.index t (1 : Fin 2) * 64 + 1 * q.val = q.val; rw [e1]; omega

theorem blk2_1_apply (c : Dev nD) (t : Fin cfg2.N) (r : Fin 5000) (q : Fin 64) (i : Fin 100000)
    (hi : i.val = 5000 * t.val + r.val) :
    (Hand.iblk2 V c 1 t : Vec Ideal S5000x64 .bf16) (ix2 r q) = (V c main_v70 : S100000x64.Idx → EReal) (ix2 i q) := by
  obtain ⟨e0, e1⟩ := (idx2 t).2.1
  unfold Hand.iblk2
  rw [View.read_apply]
  refine Entry.at_ix2 (V c main_v70 : S100000x64.Idx → EReal) ?_ ?_
  · show win2_1.index t (0 : Fin 2) * 5000 + 1 * r.val = i.val; rw [e0, hi]; omega
  · show win2_1.index t (1 : Fin 2) * 64 + 1 * q.val = q.val; rw [e1]; omega

theorem blk2_2_apply (c : Dev nD) (t : Fin cfg2.N) (r : Fin 5000) (q : Fin 1) (i : Fin 100000)
    (hi : i.val = 5000 * t.val + r.val) :
    (Hand.iblk2 V c 2 t : Vec Ideal S5000x1 .f32) (ix2 r q) = (V c main_v14 : S100000x1.Idx → EReal) (ix2 i q) := by
  obtain ⟨e0, e1⟩ := (idx2 t).2.2.1
  unfold Hand.iblk2
  rw [View.read_apply]
  refine Entry.at_ix2 (V c main_v14 : S100000x1.Idx → EReal) ?_ ?_
  · show win2_2.index t (0 : Fin 2) * 5000 + 1 * r.val = i.val; rw [e0, hi]; omega
  · show win2_2.index t (1 : Fin 2) * 1 + 1 * q.val = q.val; rw [e1]; omega

theorem blk2_3_apply (c : Dev nD) (t : Fin cfg2.N) (p : Fin 1) (q : Fin 64) :
    (Hand.iblk2 V c 3 t : Vec Ideal S1x64 .f32) (ix2 p q) = (V c main_v85 : S1x64.Idx → EReal) (ix2 p q) := by
  obtain ⟨e0, e1⟩ := (idx2 t).2.2.2.1
  unfold Hand.iblk2
  rw [View.read_apply]
  refine Entry.at_ix2 (V c main_v85 : S1x64.Idx → EReal) ?_ ?_
  · show win2_3.index t (0 : Fin 2) * 1 + 1 * p.val = p.val; rw [e0]; omega
  · show win2_3.index t (1 : Fin 2) * 64 + 1 * q.val = q.val; rw [e1]; omega

theorem blk2_4_apply (c : Dev nD) (t : Fin cfg2.N) (r : Fin 5000) (q : Fin 1) (i : Fin 100000)
    (hi : i.val = 5000 * t.val + r.val) :
    (Hand.iblk2 V c 4 t : Vec Ideal S5000x1 .i32) (ix2 r q) = (V c main_v53 : S100000x1.Idx → BitVec 32) (ix2 i q) := by
  obtain ⟨e0, e1⟩ := (idx2 t).2.2.2.2.1
  unfold Hand.iblk2
  rw [View.read_apply]
  refine Entry.at_ix2 (V c main_v53 : S100000x1.Idx → BitVec 32) ?_ ?_
  · show win2_4.index t (0 : Fin 2) * 5000 + 1 * r.val = i.val; rw [e0, hi]; omega
  · show win2_4.index t (1 : Fin 2) * 1 + 1 * q.val = q.val; rw [e1]; omega

theorem blk2_5_apply (c : Dev nD) (t : Fin cfg2.N) (p : Fin 64) (q : Fin 32) :
    (Hand.iblk2 V c 5 t : Vec Ideal S64x32 .f32) (ix2 p q) = (V c main_arg8 : S64x32.Idx → EReal) (ix2 p q) := by
  obtain ⟨e0, e1⟩ := (idx2 t).2.2.2.2.2.1
  unfold Hand.iblk2
  rw [View.read_apply]
  refine Entry.at_ix2 (V c main_arg8 : S64x32.Idx → EReal) ?_ ?_
  · show win2_5.index t (0 : Fin 2) * 64 + 1 * p.val = p.val; rw [e0]; omega
  · show win2_5.index t (1 : Fin 2) * 32 + 1 * q.val = q.val; rw [e1]; omega

theorem blk2_6_apply (c : Dev nD) (t : Fin cfg2.N) (p : Fin 1) (q : Fin 32) :
    (Hand.iblk2 V c 6 t : Vec Ideal S1x32 .f32) (ix2 p q) = (V c main_v86 : S1x32.Idx → EReal) (ix2 p q) := by
  obtain ⟨e0, e1⟩ := (idx2 t).2.2.2.2.2.2.1
  unfold Hand.iblk2
  rw [View.read_apply]
  refine Entry.at_ix2 (V c main_v86 : S1x32.Idx → EReal) ?_ ?_
  · show win2_6.index t (0 : Fin 2) * 1 + 1 * p.val = p.val; rw [e0]; omega
  · show win2_6.index t (1 : Fin 2) * 32 + 1 * q.val = q.val; rw [e1]; omega

theorem blk2_7_apply (c : Dev nD) (t : Fin cfg2.N) (p : Fin 32) (q : Fin 10) :
    (Hand.iblk2 V c 7 t : Vec Ideal S32x10 .f32) (ix2 p q) = (V c main_arg10 : S32x10.Idx → EReal) (ix2 p q) := by
  obtain ⟨e0, e1⟩ := (idx2 t).2.2.2.2.2.2.2.1
  unfold Hand.iblk2
  rw [View.read_apply]
  refine Entry.at_ix2 (V c main_arg10 : S32x10.Idx → EReal) ?_ ?_
  · show win2_7.index t (0 : Fin 2) * 32 + 1 * p.val = p.val; rw [e0]; omega
  · show win2_7.index t (1 : Fin 2) * 10 + 1 * q.val = q.val; rw [e1]; omega

theorem blk2_8_apply (c : Dev nD) (t : Fin cfg2.N) (p : Fin 1) (q : Fin 10) :
    (Hand.iblk2 V c 8 t : Vec Ideal S1x10 .f32) (ix2 p q) = (V c main_v87 : S1x10.Idx → EReal) (ix2 p q) := by
  obtain ⟨e0, e1⟩ := (idx2 t).2.2.2.2.2.2.2.2
  unfold Hand.iblk2
  rw [View.read_apply]
  refine Entry.at_ix2 (V c main_v87 : S1x10.Idx → EReal) ?_ ?_
  · show win2_8.index t (0 : Fin 2) * 1 + 1 * p.val = p.val; rw [e0]; omega
  · show win2_8.index t (1 : Fin 2) * 10 + 1 * q.val = q.val; rw [e1]; omega

end Cert.KernelIdeal.Val.R2

end
-- ==== Proof.Val.R2Pieces.lean ====
import proofs.«403409_j10926396801662_3_alg».proof.Proof.KI.Region2
import Idealize.ShloMosaic.Lib.Pipeline.Value
import Idealize.ShloMosaic.Lib.Tactic

set_option maxRecDepth 16384

noncomputable section

namespace Cert.KernelIdeal.Val.R2

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

theorem sA0 (c : Dev nD) (i : grid2.Coords) (A : Hand.Args2) (hc0 : Hand.cond2_0 i) (hc1 : ¬Hand.cond2_1 i) (x : Hand.In2 F) :
    Hand.sout2_A_0 c i A hc0 hc1 x = k2_pay7 x.x0 x.x2 x.x1 x.x3 x.x4 (k2_pay3 (F := F)) := by
  unfold Hand.sout2_A_0
  rw [View.read_writes_eq_canon _ _ _ (Hand.scover2_A_0 c i A hc0 hc1 x)]
  unfold Hand.kernelRun2_A
  dsimp only
  sl_unfold_words
  rw [View.canon_cons_unit_zero (S := S128x64) hz, View.readCov_unit_zero (S := S128x64) _ hz]
  simp only [View.readAt_eq_ld, A.h1.read_unread, A.h2.read_unread, A.h3.read_unread, A.h4.read_unread, A.h5.read_unread, A.h6.read_unread, A.h7.read_unread, A.h8.read_unread, A.h9.read_unread, A.h10.read_unread, A.h11.read_unread, A.h12.read_unread, View.ld_unit_zero (S := S5000x64) hz, View.ld_unit_zero (S := S5000x1) hz, View.ld_unit_zero (S := S1x64) hz, View.ld_unit_zero (S := S64x32) hz, View.ld_unit_zero (S := S1x32) hz, View.ld_unit_zero (S := S32x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz]

theorem sA1 (c : Dev nD) (i : grid2.Coords) (A : Hand.Args2) (hc0 : Hand.cond2_0 i) (hc1 : ¬Hand.cond2_1 i) (x : Hand.In2 F) :
    Hand.sout2_A_1 c i A hc0 hc1 x = k2_pay1 (k2_pay6 x.x4) (k2_pay4 (F := F)) := by
  unfold Hand.sout2_A_1
  rw [View.read_writes_eq_canon _ _ _ (Hand.scover2_A_1 c i A hc0 hc1 x)]
  unfold Hand.kernelRun2_A
  dsimp only
  sl_unfold_words
  rw [View.canon_cons_unit_zero (S := S128x1) hz, View.readCov_unit_zero (S := S128x1) _ hz]
  simp only [View.readAt_eq_ld, A.h1.read_unread, A.h2.read_unread, A.h3.read_unread, A.h4.read_unread, A.h5.read_unread, A.h6.read_unread, A.h7.read_unread, A.h8.read_unread, A.h9.read_unread, A.h10.read_unread, A.h11.read_unread, A.h12.read_unread, View.ld_unit_zero (S := S5000x64) hz, View.ld_unit_zero (S := S5000x1) hz, View.ld_unit_zero (S := S1x64) hz, View.ld_unit_zero (S := S64x32) hz, View.ld_unit_zero (S := S1x32) hz, View.ld_unit_zero (S := S32x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz]

theorem sB0 (c : Dev nD) (i : grid2.Coords) (A : Hand.Args2) (hc0 : ¬Hand.cond2_0 i) (hc1 : ¬Hand.cond2_1 i) (x : Hand.In2 F) (xs0 : Vec F S128x64 .f32) (xs1 : Vec F S128x1 .f32) :
    Hand.sout2_B_0 c i A hc0 hc1 x xs0 xs1 = k2_pay7 x.x0 x.x2 x.x1 x.x3 x.x4 xs0 := by
  unfold Hand.sout2_B_0
  rw [View.read_writes_eq_canon _ _ _ (Hand.scover2_B_0 c i A hc0 hc1 x xs0 xs1)]
  unfold Hand.kernelRun2_B
  dsimp only
  sl_unfold_words
  rw [View.canon_unit_zero hz]
  simp only [View.readAt_eq_ld, A.h1.read_unread, A.h2.read_unread, A.h3.read_unread, A.h4.read_unread, A.h5.read_unread, A.h6.read_unread, A.h7.read_unread, A.h8.read_unread, A.h9.read_unread, A.h10.read_unread, A.h11.read_unread, A.h12.read_unread, View.ld_unit_zero (S := S5000x64) hz, View.ld_unit_zero (S := S5000x1) hz, View.ld_unit_zero (S := S1x64) hz, View.ld_unit_zero (S := S64x32) hz, View.ld_unit_zero (S := S1x32) hz, View.ld_unit_zero (S := S32x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz]

theorem sB1 (c : Dev nD) (i : grid2.Coords) (A : Hand.Args2) (hc0 : ¬Hand.cond2_0 i) (hc1 : ¬Hand.cond2_1 i) (x : Hand.In2 F) (xs0 : Vec F S128x64 .f32) (xs1 : Vec F S128x1 .f32) :
    Hand.sout2_B_1 c i A hc0 hc1 x xs0 xs1 = k2_pay1 (k2_pay6 x.x4) xs1 := by
  unfold Hand.sout2_B_1
  rw [View.read_writes_eq_canon _ _ _ (Hand.scover2_B_1 c i A hc0 hc1 x xs0 xs1)]
  unfold Hand.kernelRun2_B
  dsimp only
  sl_unfold_words
  rw [View.canon_unit_zero hz]
  simp only [View.readAt_eq_ld, A.h1.read_unread, A.h2.read_unread, A.h3.read_unread, A.h4.read_unread, A.h5.read_unread, A.h6.read_unread, A.h7.read_unread, A.h8.read_unread, A.h9.read_unread, A.h10.read_unread, A.h11.read_unread, A.h12.read_unread, View.ld_unit_zero (S := S5000x64) hz, View.ld_unit_zero (S := S5000x1) hz, View.ld_unit_zero (S := S1x64) hz, View.ld_unit_zero (S := S64x32) hz, View.ld_unit_zero (S := S1x32) hz, View.ld_unit_zero (S := S32x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz]

theorem sC0 (c : Dev nD) (i : grid2.Coords) (A : Hand.Args2) (hc0 : ¬Hand.cond2_0 i) (hc1 : Hand.cond2_1 i) (x : Hand.In2 F) (xs0 : Vec F S128x64 .f32) (xs1 : Vec F S128x1 .f32) :
    Hand.sout2_C_0 c i A hc0 hc1 x xs0 xs1 = k2_pay7 x.x0 x.x2 x.x1 x.x3 x.x4 xs0 := by
  unfold Hand.sout2_C_0
  rw [View.read_writes_eq_canon _ _ _ (Hand.scover2_C_0 c i A hc0 hc1 x xs0 xs1)]
  unfold Hand.kernelRun2_C
  dsimp only
  sl_unfold_words
  rw [View.canon_unit_zero hz]
  simp only [View.readAt_eq_ld, A.h1.read_unread, A.h2.read_unread, A.h3.read_unread, A.h4.read_unread, A.h5.read_unread, A.h6.read_unread, A.h7.read_unread, A.h8.read_unread, A.h9.read_unread, A.h10.read_unread, A.h11.read_unread, A.h12.read_unread, View.ld_unit_zero (S := S5000x64) hz, View.ld_unit_zero (S := S5000x1) hz, View.ld_unit_zero (S := S1x64) hz, View.ld_unit_zero (S := S64x32) hz, View.ld_unit_zero (S := S1x32) hz, View.ld_unit_zero (S := S32x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz]

theorem sC1 (c : Dev nD) (i : grid2.Coords) (A : Hand.Args2) (hc0 : ¬Hand.cond2_0 i) (hc1 : Hand.cond2_1 i) (x : Hand.In2 F) (xs0 : Vec F S128x64 .f32) (xs1 : Vec F S128x1 .f32) :
    Hand.sout2_C_1 c i A hc0 hc1 x xs0 xs1 = k2_pay1 (k2_pay6 x.x4) xs1 := by
  unfold Hand.sout2_C_1
  rw [View.read_writes_eq_canon _ _ _ (Hand.scover2_C_1 c i A hc0 hc1 x xs0 xs1)]
  unfold Hand.kernelRun2_C
  dsimp only
  sl_unfold_words
  rw [View.canon_unit_zero hz]
  simp only [View.readAt_eq_ld, A.h1.read_unread, A.h2.read_unread, A.h3.read_unread, A.h4.read_unread, A.h5.read_unread, A.h6.read_unread, A.h7.read_unread, A.h8.read_unread, A.h9.read_unread, A.h10.read_unread, A.h11.read_unread, A.h12.read_unread, View.ld_unit_zero (S := S5000x64) hz, View.ld_unit_zero (S := S5000x1) hz, View.ld_unit_zero (S := S1x64) hz, View.ld_unit_zero (S := S64x32) hz, View.ld_unit_zero (S := S1x32) hz, View.ld_unit_zero (S := S32x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz]

theorem oC9 (c : Dev nD) (i : grid2.Coords) (A : Hand.Args2) (hc0 : ¬Hand.cond2_0 i) (hc1 : Hand.cond2_1 i) (x : Hand.In2 F) (xs0 : Vec F S128x64 .f32) (xs1 : Vec F S128x1 .f32) :
    Hand.out2_C_9 c i A hc0 hc1 x xs0 xs1 = k2_pay2 (k2_pay7 x.x0 x.x2 x.x1 x.x3 x.x4 xs0) (k2_pay1 (k2_pay6 x.x4) xs1) x.x5 x.x6 x.x7 x.x8 := by
  unfold Hand.out2_C_9
  rw [View.read_writes_eq_canon _ _ _ (Hand.cover2_C_9 c i A hc0 hc1 x xs0 xs1)]
  unfold Hand.kernelRun2_C
  dsimp only
  sl_unfold_words
  rw [View.canon_unit_zero hz]
  simp only [View.readAt_eq_ld, A.h1.read_unread, A.h2.read_unread, A.h3.read_unread, A.h4.read_unread, A.h5.read_unread, A.h6.read_unread, A.h7.read_unread, A.h8.read_unread, A.h9.read_unread, A.h10.read_unread, A.h11.read_unread, A.h12.read_unread, View.ld_unit_zero (S := S5000x64) hz, View.ld_unit_zero (S := S5000x1) hz, View.ld_unit_zero (S := S1x64) hz, View.ld_unit_zero (S := S64x32) hz, View.ld_unit_zero (S := S1x32) hz, View.ld_unit_zero (S := S32x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz]

end Cert.KernelIdeal.Val.R2

end
-- ==== Proof.Val.R2Array.lean ====
import proofs.«403409_j10926396801662_3_alg».proof.Proof.KI.Region2
import proofs.«403409_j10926396801662_3_alg».proof.Proof.Gen.KernelIdeal.Points
import Idealize.ShloMosaic.Lib.Pipeline.Value
import Idealize.ShloMosaic.PureOps.Ideal

noncomputable section

namespace Cert.KernelIdeal.Val.R2

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem block_index9 : ∀ t : Fin cfg2.N, win2_9.index t (0 : Fin 2) = 0 ∧ win2_9.index t (1 : Fin 2) = 0 :=
  (by decide +kernel : ∀ t : Fin grid2.N, _)

theorem whole_block9 (G : Vec Ideal S128x10 .f32) (t : Fin cfg2.N) :
    (cfg2.win 9).cut (grid2.coords t) G = ((cfg2.win 9).blk t).view.read (Elt Ideal) G := by
  obtain ⟨e0, e1⟩ := block_index9 t
  funext j
  show G j = G (((cfg2.win 9).blk t).view.emb j)
  refine congrArg G (funext fun a => Fin.ext ?_)
  match a with
  | ⟨0, _⟩ => show (j 0).val = win2_9.index t (0 : Fin 2) * 128 + 1 * (j 0).val; rw [e0]; omega
  | ⟨1, _⟩ => show (j 1).val = win2_9.index t (1 : Fin 2) * 10 + 1 * (j 1).val; rw [e1]; omega

theorem cover9 (h19 : 19 < cfg2.N) (i : S128x10.Idx) :
    ∃ t : Fin cfg2.N, (cfg2.win 9).flush t = true ∧ i ∈ ((cfg2.win 9).blk t).view.set := by
  have hi0 : (i 0).val < 128 := (i 0).isLt
  have hi1 : (i 1).val < 10 := (i 1).isLt
  obtain ⟨e0, e1⟩ := block_index9 ⟨19, h19⟩
  refine ⟨⟨19, h19⟩, (flush2_9 ⟨19, h19⟩).mpr rfl, ?_⟩
  show i ∈ ((View.whole main_v88).slice (win2_9.rect ⟨19, h19⟩)).set
  rw [View.set_slice_whole, Rect.mem_set_unit]
  intro a
  match a with
  | ⟨0, _⟩ =>
    show win2_9.index ⟨19, h19⟩ (0 : Fin 2) * 128 ≤ (i 0).val ∧ (i 0).val < win2_9.index ⟨19, h19⟩ (0 : Fin 2) * 128 + 128
    rw [e0]; omega
  | ⟨1, _⟩ =>
    show win2_9.index ⟨19, h19⟩ (1 : Fin 2) * 10 ≤ (i 1).val ∧ (i 1).val < win2_9.index ⟨19, h19⟩ (1 : Fin 2) * 10 + 10
    rw [e1]; omega

theorem writeback9 (c : Dev nD) (h19 : 19 < cfg2.N) (t : Fin cfg2.N) (hf : (cfg2.win 9).flush t = true) :
    (Hand.dat2 V c).flushed 9 t = ((cfg2.win 9).blk t).view.read (Elt Ideal) ((Hand.outsAt2 V c 19 h19).1 : Vec Ideal S128x10 .f32) := by
  have hN : cfg2.N = 20 := N_2
  have h1 : t.val = 19 := by have h := (flush2_9 t).mp hf; have h' := t.isLt; omega
  obtain rfl : t = ⟨19, h19⟩ := Fin.ext h1
  show (cfg2.win 9).cut (grid2.coords ⟨19, h19⟩) ((Hand.dat2 V c).after 9 ⟨19, h19⟩) = _
  rw [Hand.after2_9]
  exact whole_block9 _ ⟨19, h19⟩

theorem arr9_eq (c : Dev nD) (h19 : 19 < cfg2.N) :
    (Hand.dat2 V c).arrAt 9 cfg2.N = ((Hand.outsAt2 V c 19 h19).1 : S128x10.Idx → EReal) :=
  (Hand.dat2 V c).arrAt_eq_of_cover 9 ((Hand.outsAt2 V c 19 h19).1 : Vec Ideal S128x10 .f32)
    (fun t hf => writeback9 V c h19 t hf) (cover9 h19)

end Cert.KernelIdeal.Val.R2

end
-- ==== Proof.Val.R2.lean ====
import proofs.«403409_j10926396801662_3_alg».proof.Proof.KI.Region2
import proofs.«403409_j10926396801662_3_alg».proof.Proof.Val.R2Algebra
import proofs.«403409_j10926396801662_3_alg».proof.Proof.Val.R2Blocks
import proofs.«403409_j10926396801662_3_alg».proof.Proof.Val.R2Pieces
import proofs.«403409_j10926396801662_3_alg».proof.Proof.Val.R2Array
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

namespace R2

theorem head_congr {pl pl' : Fin 128 → Fin 64 → EReal} {ct ct' : Fin 128 → EReal} {W1 W1' : Fin 64 → Fin 32 → EReal}
    {b1 b1' : Fin 32 → EReal} {W2 W2' : Fin 32 → Fin 10 → EReal} {b2 b2' : Fin 10 → EReal}
    (h1 : ∀ g d, pl g d = pl' g d) (h2 : ∀ g, ct g = ct' g) (h3 : ∀ p q, W1 p q = W1' p q) (h4 : ∀ q, b1 q = b1' q)
    (h5 : ∀ p q, W2 p q = W2' p q) (h6 : ∀ q, b2 q = b2' q) (g : Fin 128) (j : Fin 10) :
    GCN.head pl ct W1 b1 W2 b2 g j = GCN.head pl' ct' W1' b1' W2' b2' g j := by
  obtain rfl : pl = pl' := funext fun g => funext (h1 g)
  obtain rfl : ct = ct' := funext h2
  obtain rfl : W1 = W1' := funext fun p => funext (h3 p)
  obtain rfl : b1 = b1' := funext h4
  obtain rfl : W2 = W2' := funext fun p => funext (h5 p)
  obtain rfl : b2 = b2' := funext h6
  rfl

abbrev act (a0 a1 : S100000x64.Idx → EReal) (a2 : S100000x1.Idx → EReal) (a3 : S1x64.Idx → EReal) : Fin 100000 → Fin 64 → EReal :=
  fun i d => max (GCN.A2 a0 i d + a2 (ix2 i (0 : Fin 1)) * GCN.A2 a1 i d + a3 (ix2 (0 : Fin 1) d)) 0

abbrev words (a : S100000x1.Idx → BitVec 32) : Fin 100000 → BitVec 32 := fun i => a (ix2 i (0 : Fin 1))

abbrev rowOf {n : ℕ} (a : (⟨2, ![1, n]⟩ : Shape).Idx → EReal) : Fin n → EReal := fun q => a (ix2 (0 : Fin 1) q)

abbrev a2 (c : Dev nD) : Fin 100000 → Fin 64 → EReal := act (V c main_v84) (V c main_v70) (V c main_v14) (V c main_v85)

abbrev bat (c : Dev nD) : Fin 100000 → BitVec 32 := words (V c main_v53)

def fS (c : Dev nD) (g : Fin 128) (d : Fin 64) : Fin 100000 → EReal :=
  fun i => (if bat V c i = BitVec.ofNat 32 g.val then (1 : EReal) else 0) * a2 V c i d

def fC (c : Dev nD) (g : Fin 128) : Fin 100000 → EReal :=
  fun i => if bat V c i = BitVec.ofNat 32 g.val then (1 : EReal) else 0

theorem step_S (c : Dev nD) (t : Fin cfg2.N) (ht : t.val < 20) (xs0 : Vec Ideal S128x64 .f32) (g : Fin 128) (d : Fin 64)
    (hxs : xs0 (ix2 g d) = pre (fS V c g d) t.val) :
    k2_pay7 (F := Ideal) (Hand.iblk2 V c 0 t) (Hand.iblk2 V c 2 t) (Hand.iblk2 V c 1 t) (Hand.iblk2 V c 3 t) (Hand.iblk2 V c 4 t) xs0 (ix2 g d) = pre (fS V c g d) (t.val + 1) := by
  refine (pay7_apply ..).trans ?_
  rw [pre_succ _ _ ht, hxs]
  refine congrArg (pre (fS V c g d) t.val + ·) (Finset.sum_congr rfl fun r _ => ?_)
  rw [blk2_0_apply V c t r d (row t.val ht r) rfl, blk2_1_apply V c t r d (row t.val ht r) rfl,
    blk2_2_apply V c t r (0 : Fin 1) (row t.val ht r) rfl, blk2_3_apply V c t (0 : Fin 1) d,
    blk2_4_apply V c t r (0 : Fin 1) (row t.val ht r) rfl]
  rfl

theorem step_C (c : Dev nD) (t : Fin cfg2.N) (ht : t.val < 20) (xs1 : Vec Ideal S128x1 .f32) (g : Fin 128) (z : Fin 1)
    (hxs : xs1 (ix2 g z) = pre (fC V c g) t.val) :
    k2_pay1 (F := Ideal) (k2_pay6 (F := Ideal) (Hand.iblk2 V c 4 t)) xs1 (ix2 g z) = pre (fC V c g) (t.val + 1) := by
  refine (pay1_apply ..).trans ?_
  rw [pay6_apply, pre_succ _ _ ht, hxs]
  refine congrArg (pre (fC V c g) t.val + ·) (Finset.sum_congr rfl fun r _ => ?_)
  rw [blk2_4_apply V c t r (0 : Fin 1) (row t.val ht r) rfl]
  rfl

theorem acc_eq (c : Dev nD) : ∀ (n : ℕ) (hn : n < cfg2.N) (g : Fin 128) (d : Fin 64) (z : Fin 1),
    (Hand.outsAt2 V c n hn).2.1 (ix2 g d) = pre (fS V c g d) (n + 1)
      ∧ (Hand.outsAt2 V c n hn).2.2 (ix2 g z) = pre (fC V c g) (n + 1)
  | 0, hn, g, d, z => by
    rw [Hand.outsAt2_A V c ⟨0, hn⟩ rfl (by show ¬(0 % 20 = 19); decide), sA0, sA1]
    dsimp only
    exact ⟨step_S V c ⟨0, hn⟩ (by show 0 < 20; decide) _ g d ((pay3_apply g d).trans (pre_zero _).symm),
      step_C V c ⟨0, hn⟩ (by show 0 < 20; decide) _ g z ((pay4_apply g z).trans (pre_zero _).symm)⟩
  | n + 1, hn, g, d, z => by
    have hN : cfg2.N = 20 := N_2
    have ht : n + 1 < 20 := hN ▸ hn
    have h0 : ¬(⟨n + 1, hn⟩ : Fin cfg2.N).val % 20 = 0 := by dsimp only; omega
    have ih := acc_eq c n (Nat.lt_of_succ_lt hn) g d z
    by_cases h1 : (⟨n + 1, hn⟩ : Fin cfg2.N).val % 20 = 19
    · rw [Hand.outsAt2_C V c ⟨n + 1, hn⟩ h0 h1, sC0, sC1]
      dsimp only
      exact ⟨step_S V c ⟨n + 1, hn⟩ ht _ g d ih.1,
        step_C V c ⟨n + 1, hn⟩ ht _ g z ih.2⟩
    · rw [Hand.outsAt2_B V c ⟨n + 1, hn⟩ h0 h1, sB0, sB1]
      dsimp only
      exact ⟨step_S V c ⟨n + 1, hn⟩ ht _ g d ih.1,
        step_C V c ⟨n + 1, hn⟩ ht _ g z ih.2⟩

theorem out_eq (c : Dev nD) (h19 : 19 < cfg2.N) (g : Fin 128) (j : Fin 10) :
    (Hand.outsAt2 V c 19 h19).1 (ix2 g j)
      = GCN.head (GCN.pool (bat V c) (a2 V c)) (GCN.cnt (bat V c)) (GCN.A2 (V c main_arg8 : S64x32.Idx → EReal))
        (rowOf (V c main_v86)) (GCN.A2 (V c main_arg10 : S32x10.Idx → EReal))
        (rowOf (V c main_v87)) g j := by
  have h0 : ¬(⟨19, h19⟩ : Fin cfg2.N).val % 20 = 0 := by show ¬(19 % 20 = 0); decide
  have h1 : (⟨19, h19⟩ : Fin cfg2.N).val % 20 = 19 := rfl
  rw [Hand.outsAt2_C V c ⟨19, h19⟩ h0 h1, oC9]
  dsimp only
  refine (pay2_apply ..).trans ?_
  refine head_congr (fun g' d' => ?_) (fun g' => ?_) (fun p q => blk2_5_apply V c ⟨19, h19⟩ p q)
    (fun q => blk2_6_apply V c ⟨19, h19⟩ (0 : Fin 1) q) (fun p q => blk2_7_apply V c ⟨19, h19⟩ p q)
    (fun q => blk2_8_apply V c ⟨19, h19⟩ (0 : Fin 1) q) g j
  · refine (step_S V c ⟨19, h19⟩ (by show 19 < 20; decide) _ g' d' (acc_eq V c 18 _ g' d' 0).1).trans ?_
    show pre (fS V c g' d') 20 = _
    rw [pre_full]
    exact pool_eq (bat V c) (a2 V c) g' d'
  · refine (step_C V c ⟨19, h19⟩ (by show 19 < 20; decide) _ g' (0 : Fin 1) (acc_eq V c 18 _ g' 0 0).2).trans ?_
    show pre (fC V c g') 20 = _
    rw [pre_full]
    exact cnt_eq (bat V c) g'

end R2

theorem r2_value (c : Dev nD) (g : Fin 128) (j : Fin 10) :
    (Hand.dat2 V c).arrAt 9 cfg2.N (ix2 g j)
      = GCN.head (GCN.pool (R2.bat V c) (R2.a2 V c)) (GCN.cnt (R2.bat V c)) (GCN.A2 (V c main_arg8 : S64x32.Idx → EReal))
        (R2.rowOf (V c main_v86)) (GCN.A2 (V c main_arg10 : S32x10.Idx → EReal))
        (R2.rowOf (V c main_v87)) g j := by
  have h19 : 19 < cfg2.N := by rw [show cfg2.N = 20 from N_2]; decide
  exact (congrFun (R2.arr9_eq V c h19) (ix2 g j)).trans (R2.out_eq V c h19 g j)

end Cert.KernelIdeal.Val

end
-- ==== Proof.LibGraphOps.lean ====
import proofs.«403409_j10926396801662_3_alg».proof.Proof.Spec
import Idealize.ShloMosaic.Lib.StableHlo.Predicate
import Idealize.ShloMosaic.Lib.ValueIdxRank1
import Idealize.ShloMosaic.Lib.Pipeline.Value
import Idealize.ShloMosaic.Lib.SortFacts

noncomputable section

namespace GraphOps

open Idealize.ShloMosaic Idealize.ShloMosaic.ValueIdx GCN
open scoped BigOperators

theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

-- An update lands on `i` exactly when, on every axis, its window's start plus its window coordinate is `i`'s coordinate.
theorem resultIdx_iff {s si u : Shape} {w : ℕ} (d : ScatterDims s si u) (j : u.Idx) (idx : IVec si w) (i : s.Idx) :
    d.resultIdx? j idx = some i ↔ ∀ a, d.start j idx a + ((d.window j a : ℕ) : ℤ) = ((i a).val : ℤ) := by
  unfold ScatterDims.resultIdx?
  split
  · next h =>
    rw [Option.some.injEq, funext_iff]
    refine forall_congr' fun a => ?_
    rw [Fin.ext_iff]
    have := h a
    show (d.start j idx a + ((d.window j a : ℕ) : ℤ)).toNat = (i a).val ↔ _
    omega
  · next h =>
    refine iff_of_false (fun hf => nomatch hf) fun hh => h fun a => ?_
    have := (i a).isLt
    rw [hh a]
    omega

theorem scatter1_start_window {N M : ℕ} (d : ScatterDims ⟨1, ![N]⟩ ⟨2, ![M, 1]⟩ ⟨1, ![M]⟩)
    (hupd : d.updateWindowDims = []) (hins : d.insertedWindowDims = [0])
    (hsd : d.scatterDimsToOperandDims = [0]) (hiv : d.indexVectorDim = 1)
    (idx : IVec ⟨2, ![M, 1]⟩ 32) (e : Fin M) :
    d.start (ix1 e) idx 0 = (idx (ix2 e 0)).toInt ∧ d.window (ix1 e) 0 = 0 := by
  obtain ⟨uw, iw, sd, iv, wf⟩ := d
  dsimp only at hupd hins hsd hiv
  subst hupd hins hsd hiv
  constructor
  · unfold ScatterDims.start
    rw [dif_pos (List.mem_singleton.mpr rfl)]
    exact congrArg (fun z => (idx z).toInt) (Shape.idx_ext₂ rfl rfl)
  · unfold ScatterDims.window
    rw [dif_neg (by simp [ScatterDims.sKept, Shape.kept])]

theorem scatterAdd_rows1 {N M : ℕ} (d : ScatterDims ⟨1, ![N]⟩ ⟨2, ![M, 1]⟩ ⟨1, ![M]⟩)
    (hupd : d.updateWindowDims = []) (hins : d.insertedWindowDims = [0])
    (hsd : d.scatterDimsToOperandDims = [0]) (hiv : d.indexVectorDim = 1)
    (x : (⟨1, ![N]⟩ : Shape).Idx → EReal) (idx : IVec ⟨2, ![M, 1]⟩ 32) (upd : (⟨1, ![M]⟩ : Shape).Idx → EReal)
    (i : Fin N) :
    Ideal.hostScatterAdd d x idx upd (ix1 i)
      = x (ix1 i) + ∑ e : Fin M, if hit (idx (ix2 e 0)) i.val then upd (ix1 e) else 0 := by
  unfold Ideal.hostScatterAdd
  congr 1
  rw [Finset.sum_filter, sum_idx1]
  refine Finset.sum_congr rfl fun e _ => if_congr ?_ rfl rfl
  obtain ⟨hs, hw⟩ := scatter1_start_window d hupd hins hsd hiv idx e
  rw [resultIdx_iff]
  refine Fin.forall_fin_one.trans ?_
  show d.start (ix1 e) idx 0 + ((d.window (ix1 e) 0 : ℕ) : ℤ) = (i.val : ℤ) ↔ _
  rw [hs, hw, Nat.cast_zero, add_zero]
  exact Iff.rfl

theorem scatter2_start_window {N D M : ℕ} (d : ScatterDims ⟨2, ![N, D]⟩ ⟨2, ![M, 1]⟩ ⟨2, ![M, D]⟩)
    (hupd : d.updateWindowDims = [1]) (hins : d.insertedWindowDims = [0])
    (hsd : d.scatterDimsToOperandDims = [0]) (hiv : d.indexVectorDim = 1)
    (idx : IVec ⟨2, ![M, 1]⟩ 32) (e : Fin M) (q : Fin D) :
    d.start (ix2 e q) idx 0 = (idx (ix2 e 0)).toInt ∧ d.start (ix2 e q) idx 1 = 0
      ∧ d.window (ix2 e q) 0 = 0 ∧ d.window (ix2 e q) 1 = q.val := by
  obtain ⟨uw, iw, sd, iv, wf⟩ := d
  dsimp only at hupd hins hsd hiv
  subst hupd hins hsd hiv
  refine ⟨?_, ?_, ?_, ?_⟩
  · unfold ScatterDims.start
    rw [dif_pos (List.mem_singleton.mpr rfl)]
    exact congrArg (fun z => (idx z).toInt) (Shape.idx_ext₂ rfl rfl)
  · unfold ScatterDims.start
    rw [dif_neg (show ¬ (1 : Fin 2) ∈ ([0] : List (Fin 2)) by decide)]
  · unfold ScatterDims.window
    rw [dif_neg (by simp [ScatterDims.sKept, Shape.kept])]
  · unfold ScatterDims.window
    rw [dif_pos (by simp [ScatterDims.sKept, Shape.kept])]
    rfl

theorem scatterAdd_rows2 {N D M : ℕ} (d : ScatterDims ⟨2, ![N, D]⟩ ⟨2, ![M, 1]⟩ ⟨2, ![M, D]⟩)
    (hupd : d.updateWindowDims = [1]) (hins : d.insertedWindowDims = [0])
    (hsd : d.scatterDimsToOperandDims = [0]) (hiv : d.indexVectorDim = 1)
    (x : (⟨2, ![N, D]⟩ : Shape).Idx → EReal) (idx : IVec ⟨2, ![M, 1]⟩ 32) (upd : (⟨2, ![M, D]⟩ : Shape).Idx → EReal)
    (i : Fin N) (k : Fin D) :
    Ideal.hostScatterAdd d x idx upd (ix2 i k)
      = x (ix2 i k) + ∑ e : Fin M, if hit (idx (ix2 e 0)) i.val then upd (ix2 e k) else 0 := by
  unfold Ideal.hostScatterAdd
  congr 1
  rw [Finset.sum_filter, sum_idx2]
  refine Finset.sum_congr rfl fun e _ => ?_
  have key : ∀ q : Fin D, d.resultIdx? (ix2 e q) idx = some (ix2 i k) ↔ hit (idx (ix2 e 0)) i.val ∧ q = k := fun q => by
    obtain ⟨hs0, hs1, hw0, hw1⟩ := scatter2_start_window d hupd hins hsd hiv idx e q
    rw [resultIdx_iff]
    refine Fin.forall_fin_two.trans ?_
    show (d.start (ix2 e q) idx 0 + ((d.window (ix2 e q) 0 : ℕ) : ℤ) = (i.val : ℤ)
      ∧ d.start (ix2 e q) idx 1 + ((d.window (ix2 e q) 1 : ℕ) : ℤ) = (k.val : ℤ)) ↔ _
    rw [hs0, hs1, hw0, hw1, Nat.cast_zero, add_zero, zero_add, Nat.cast_inj, Fin.val_inj]
    exact Iff.rfl
  rw [Finset.sum_congr rfl fun q _ => if_congr (key q) rfl rfl]
  by_cases hh : hit (idx (ix2 e 0)) i.val
  · simp only [hh, true_and, if_true]
    exact (Finset.sum_ite_eq' Finset.univ k _).trans (if_pos (Finset.mem_univ k))
  · simp only [hh, false_and, if_false]
    exact Finset.sum_const_zero

theorem ofFin_eq_ix1 {n : ℕ} (k : Fin n) : Shape.Idx.ofFin k = ix1 k := by
  funext a
  match a with
  | ⟨0, _⟩ => rfl

theorem gather_rows1 {α : Type} {N M w : ℕ} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq_ix1, ofFin_eq_ix1] at h
  simp only [show StableHlo.Predicate.ixP e = ix2 e 0 from Shape.idx_ext₂ rfl rfl] at h
  exact h

theorem gather_rows2 {α : Type} {N D M w : ℕ} (d : GatherDims ⟨2, ![N, D]⟩ ⟨2, ![M, 1]⟩ ⟨2, ![M, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![M, 1]⟩ w) (e : Fin M) (k : Fin D) (hN : 0 < N) :
    Host.gather d x idx (ix2 e k) = x (ix2 ⟨min (idx (ix2 e 0)).toInt.toNat (N - 1), by omega⟩ k) := by
  obtain ⟨od, cd, ob, sb, sm, iv, ss, wf⟩ := d
  dsimp only at hoff hcoll hob hsim hivd
  subst hoff hcoll hob hsim hivd
  unfold Host.gather
  congr 1
  funext a
  apply Fin.ext
  match a with
  | ⟨0, _⟩ =>
    show GatherDims.start _ (ix2 e k) idx 0 + GatherDims.batchCoord _ (ix2 e k) 0 + GatherDims.offCoord _ (ix2 e k) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsl : ss 0 = 1 := wf.2.2.2.2.2.2.2.2.2.2.2.1 0 (List.mem_singleton.mpr rfl)
    show min (idx _).toInt.toNat (N - ss 0) = min (idx (ix2 e 0)).toInt.toNat (N - 1)
    rw [hsl]
    exact congrArg (fun z => min (idx z).toInt.toNat (N - 1)) (Shape.idx_ext₂ rfl rfl)
  | ⟨1, _⟩ =>
    show GatherDims.start _ (ix2 e k) idx 1 + GatherDims.batchCoord _ (ix2 e k) 1 + GatherDims.offCoord _ (ix2 e k) 1
      = k.val
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨show ¬ (1 : Fin 2) ∈ ([0] : List (Fin 2)) by decide, List.not_mem_nil⟩)]
    show 0 + 0 + k.val = k.val
    omega

theorem along_eq_ix1 {M : ℕ} (j : (⟨1, ![M]⟩ : Shape).Idx) (h : 0 < (⟨1, ![M]⟩ : Shape).rank)
    (k : Fin ((⟨1, ![M]⟩ : Shape).size ⟨0, h⟩)) :
    j.along ⟨0, h⟩ k = ix1 (n := M) k := by
  funext a
  match a with
  | ⟨0, _⟩ => exact Function.update_self ..

-- A sort reads all its operands through one permutation of the positions, and the identity table then holds that permutation.
theorem argsort_perm {α : Type} {M : ℕ} (cmp : α × BitVec 32 → α × BitVec 32 → BitVec 1)
    (keys : (⟨1, ![M]⟩ : Shape).Idx → α) :
    ∃ σ : Equiv.Perm (Fin M), ∀ k : Fin M,
      (Host.sort2 ⟨1, ![M]⟩ 0 cmp keys (iotaInDim ⟨1, ![M]⟩ 32 0)).2 (ix1 k) = BitVec.ofNat 32 (σ k).val ∧
      (Host.sort2 ⟨1, ![M]⟩ 0 cmp keys (iotaInDim ⟨1, ![M]⟩ 32 0)).1 (ix1 k) = keys (ix1 (σ k)) := by
  have hd : 0 < (⟨1, ![M]⟩ : Shape).rank := Nat.one_pos
  let before : Fin M → Fin M → Bool := fun k k' =>
    cmp (keys (ix1 k), BitVec.ofNat 32 k.val) (keys (ix1 k'), BitVec.ofNat 32 k'.val) == 1#1
  refine ⟨Equiv.ofBijective (sortedFrom before) ⟨sortedFrom_injective before, sortedFrom_surjective before⟩, fun k => ?_⟩
  unfold Host.sort2
  rw [dif_pos hd]
  simp only [along_eq_ix1]
  exact ⟨rfl, rfl⟩

theorem sum_ite_perm {M : ℕ} (σ : Equiv.Perm (Fin M)) (P : Fin M → Prop) [DecidablePred P] (f : Fin M → EReal) :
    (∑ k, if P (σ k) then f (σ k) else 0) = ∑ e, if P e then f e else 0 :=
  Equiv.sum_comp σ (fun e => if P e then f e else 0)

end GraphOps

end
-- ==== Proof.Val.HostPre.lean ====
import proofs.«403409_j10926396801662_3_alg».proof.Proof.Gen.KernelIdeal.Regions
import proofs.«403409_j10926396801662_3_alg».proof.Proof.Spec
import proofs.«403409_j10926396801662_3_alg».proof.Proof.LibGraphOps
import proofs.«403409_j10926396801662_3_alg».proof.Proof.LibWords
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx GCN

variable (V : Valuation τ sig (Elt Ideal))

theorem row_apply (o : ℕ) (x : IVec S2x1600000 32) (h : S2x1600000.Slices ![o, 0] S1x1600000) (e : Fin EE)
    (r : Fin 2) (hr : r.val = o) :
    shapeCast S1600000 (extractStridedSlice S1x1600000 ![o, 0] x h) shapeCasts_S1x1600000_S1600000 (ix1 e) = x (ix2 r e) := by
  rw [shapeCast_1a_a_apply]
  exact slice2_axis0_apply o x h 0 e r hr

theorem h0_v1_at (e : Fin EE) : (after (hostOps0 (F := Ideal)) V main_v1 : IVec S1600000 32) (ix1 e) = (V main_arg1 : IVec S2x1600000 32) (ix2 0 e) := by
  after_results; exact row_apply 0 _ _ e 0 rfl

theorem h0_v3_at (e : Fin EE) : (after (hostOps0 (F := Ideal)) V main_v3 : IVec S1600000 32) (ix1 e) = (V main_arg1 : IVec S2x1600000 32) (ix2 1 e) := by
  after_results; exact row_apply 1 _ _ e 1 rfl

/-- The weights scattered onto zeros by the column words, plus one everywhere. -/
def degTerm (a1 : IVec S2x1600000 32) (w : FVec Ideal S1600000 .f32) : FVec Ideal S100000 .f32 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0
        (shapeCast S1600000 (extractStridedSlice S1x1600000 ![1, 0] a1 slices_S2x1600000_S1x1600000_1_0) shapeCasts_S1x1600000_S1600000))
      w)
    (broadcastInDim S100000 ![] bcast_S_S100000 (constant (F := Ideal) S_ .f32 0x3F800000#32))

theorem h0_v8 : (after (hostOps0 (F := Ideal)) V main_v8 : FVec Ideal S100000 .f32) = degTerm (V main_arg1) (V main_arg2) := by
  after_results; rfl

theorem h0_v10 : (after (hostOps0 (F := Ideal)) V main_v10 : IVec S100000 1)
    = cmpf .ogt (after (hostOps0 (F := Ideal)) V main_v8 : FVec Ideal S100000 .f32)
        (broadcastInDim S100000 ![] bcast_S_S100000 (constant (F := Ideal) S_ .f32 0x00000000#32)) := by
  rw [h0_v8]; after_results; rfl

theorem h0_v11 : (after (hostOps0 (F := Ideal)) V main_v11 : FVec Ideal S100000 .f32)
    = Host.rsqrt (F := Ideal) (s := S100000) (φ := .f32) (after (hostOps0 (F := Ideal)) V main_v8) := by
  rw [h0_v8]; after_results; rfl

theorem h0_cst_2 : (after (hostOps0 (F := Ideal)) V main_cst_2 : FVec Ideal S_ .f32)
    = constant (F := Ideal) S_ .f32 0x00000000#32 := by
  after_results

theorem h01_v12 : (after (hostOps0_1 (F := Ideal)) V main_v12 : FVec Ideal S100000 .f32)
    = select (V main_v10 : IVec S100000 1) (V main_v11 : FVec Ideal S100000 .f32)
        (broadcastInDim S100000 ![] bcast_S_S100000 (V main_cst_2 : FVec Ideal S_ .f32)) := by
  after_results <;> rfl

theorem h02_v14 : (after (hostOps0_2 (F := Ideal)) V main_v14 : FVec Ideal S100000x1 .f32)
    = shapeCast S100000x1 (mulf (F := Ideal) (s := S100000) (φ := .f32) (V main_v12) (V main_v12)) shapeCasts_S100000_S100000x1 := by
  after_results <;> rfl

theorem h03_v15 : (after (hostOps0_3 (F := Ideal)) V main_v15 : IVec S1600000 32)
    = (Host.sort2 S1600000 0 comparator_i32_i32_d0 (V main_v3 : IVec S1600000 32) (iotaInDim S1600000 32 0)).2 := by
  after_results <;> rfl

theorem scatter1_at (x0 : FVec Ideal S100000 .f32) (idx : IVec S1600000x1 32) (upd : FVec Ideal S1600000 .f32) (i : Fin NN) :
    Host.scatterAdd (F := Ideal) (φ := .f32) scatter_S100000_S1600000x1_S1600000_n_0_0_1 x0 idx upd (ix1 i)
      = x0 (ix1 i) + ∑ e : Fin EE, if hit (idx (ix2 e 0)) i.val then upd (ix1 e) else 0 :=
  GraphOps.scatterAdd_rows1 scatter_S100000_S1600000x1_S1600000_n_0_0_1 rfl rfl rfl rfl x0 idx upd i

/-- At `i` the degrees' term is the weighted in-degree of `i`: the scatter is the exact sum over the edges landing on `i`. -/
theorem degTerm_apply (a1 : IVec S2x1600000 32) (w : FVec Ideal S1600000 .f32) (i : Fin NN) :
    degTerm a1 w (ix1 i) = deg (fun e => a1 (ix2 1 e)) (A1 w) i := by
  unfold degTerm
  rw [addf_apply, Words.bcast_scalar_apply, Words.constant_one_f32, scatter1_at, Words.bcast_scalar_apply, Words.constant_zero_f32, zero_add]
  refine congrArg (· + (1 : EReal)) (Finset.sum_congr rfl fun e _ => ?_)
  rw [Words.bcast_col_apply, row_apply 1 _ _ e 1 rfl]

theorem h0_v8_at (i : Fin NN) :
    (after (hostOps0 (F := Ideal)) V main_v8 : FVec Ideal S100000 .f32) (ix1 i)
      = deg (fun e => (V main_arg1 : IVec S2x1600000 32) (ix2 1 e))
          (A1 (V main_arg2 : FVec Ideal S1600000 .f32)) i := by
  rw [h0_v8]; exact degTerm_apply _ _ i

theorem h01_v12_at (i : Fin NN)
    (x : FVec Ideal S100000 .f32)
    (h10 : (V main_v10 : IVec S100000 1)
        = cmpf .ogt x (broadcastInDim S100000 ![] bcast_S_S100000 (constant (F := Ideal) S_ .f32 0x00000000#32)))
    (h11 : (V main_v11 : FVec Ideal S100000 .f32) = Host.rsqrt (F := Ideal) (s := S100000) (φ := .f32) x)
    (hc : (V main_cst_2 : FVec Ideal S_ .f32) = constant (F := Ideal) S_ .f32 0x00000000#32) :
    (after (hostOps0_1 (F := Ideal)) V main_v12 : FVec Ideal S100000 .f32) (ix1 i) = dinvOf (x (ix1 i)) := by
  rw [h01_v12, h10, h11, hc]
  exact Words.dinvOf_select_rsqrt x
    (broadcastInDim S100000 ![] bcast_S_S100000 (constant (F := Ideal) S_ .f32 0x00000000#32))
    (broadcastInDim S100000 ![] bcast_S_S100000 (constant (F := Ideal) S_ .f32 0x00000000#32)) (ix1 i)
    (by rw [Words.bcast_scalar_apply, Words.constant_zero_f32]) (by rw [Words.bcast_scalar_apply, Words.constant_zero_f32])

theorem h02_v14_at (i : Fin NN) (x : FVec Ideal S100000 .f32)
    (hx : (V main_v12 : FVec Ideal S100000 .f32) = x) :
    (after (hostOps0_2 (F := Ideal)) V main_v14 : FVec Ideal S100000x1 .f32) (ix2 i 0)
      = x (ix1 i) * x (ix1 i) := by
  rw [h02_v14, hx, Words.shapeCast_a_a1_apply, mulf_apply]

/-- The words of `x` as a column, each negative one first raised by `n`. -/
def wrapCol (n : BitVec 32) (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 n))) x)

theorem wrapCol_apply (n : ℕ) (x : IVec S1600000 32) (k : Fin EE) (u : Fin 1) :
    wrapCol (BitVec.ofNat 32 n) x (ix2 k u) = wrap n (x (ix1 k)) := by
  unfold wrapCol
  rw [Words.bcast_col_apply]
  exact Words.wrap_select n x _ _ (ix1 k) (by rw [Words.bcast_scalar_apply]; rfl) (by rw [Words.bcast_scalar_apply]; rfl)

/-- A take from an edge-length table, and from a node-length table, at the wrapped words of `p`. -/
abbrev takeE {α : Type} (x : S1600000.Idx → α) (p : IVec S1600000 32) : S1600000.Idx → α :=
  Host.gather gather_S1600000_S1600000x1_S1600000_n_0_n_n_0_1_1 x (wrapCol 1600000#32 p)
abbrev takeN {α : Type} (x : S100000.Idx → α) (p : IVec S1600000 32) : S1600000.Idx → α :=
  Host.gather gather_S100000_S1600000x1_S1600000_n_0_n_n_0_1_1 x (wrapCol 100000#32 p)

theorem takeE_apply {α : Type} (x : S1600000.Idx → α) (p : IVec S1600000 32) (k : Fin EE) :
    takeE x p (ix1 k) = x (ix1 (node EE (by decide) (p (ix1 k)))) := by
  refine (GraphOps.gather_rows1 gather_S1600000_S1600000x1_S1600000_n_0_n_n_0_1_1 rfl rfl rfl rfl x (wrapCol 1600000#32 p) k (by decide)).trans ?_
  exact congrArg (fun j => x (ix1 j)) (Words.node_of_wrapped EE (by decide) _ _ (wrapCol_apply 1600000 p k 0) _)

theorem takeN_apply {α : Type} (x : S100000.Idx → α) (p : IVec S1600000 32) (k : Fin EE) :
    takeN x p (ix1 k) = x (ix1 (gnode (p (ix1 k)))) := by
  refine (GraphOps.gather_rows1 gather_S100000_S1600000x1_S1600000_n_0_n_n_0_1_1 rfl rfl rfl rfl x (wrapCol 100000#32 p) k (by decide)).trans ?_
  exact congrArg (fun j => x (ix1 j)) (Words.node_of_wrapped NN (by decide) _ _ (wrapCol_apply 100000 p k 0) _)

/-- The edge whose tables' entries sorted position `k` holds. -/
abbrev edgeAt (k : Fin EE) : Fin EE := node EE (by decide) ((V main_v15 : IVec S1600000 32) (ix1 k))

theorem h04_v22_at (k : Fin EE) :
    (after (hostOps0_4 (F := Ideal)) V main_v22 : IVec S1600000 32) (ix1 k)
      = (V main_v1 : IVec S1600000 32) (ix1 (edgeAt V k)) := by
  have h : (after (hostOps0_4 (F := Ideal)) V main_v22 : IVec S1600000 32)
      = takeE (V main_v1 : IVec S1600000 32) (V main_v15) := by after_results_simp <;> rfl
  rw [h]; exact takeE_apply _ _ k

theorem h04_v29_at (k : Fin EE) :
    (after (hostOps0_4 (F := Ideal)) V main_v29 : IVec S1600000 32) (ix1 k)
      = (V main_v3 : IVec S1600000 32) (ix1 (edgeAt V k)) := by
  have h : (after (hostOps0_4 (F := Ideal)) V main_v29 : IVec S1600000 32)
      = takeE (V main_v3 : IVec S1600000 32) (V main_v15) := by after_results_simp <;> rfl
  rw [h]; exact takeE_apply _ _ k

/-- The normalisation's table: the root of the source's degree, the weight, the root of the target's degree. -/
theorem h04_v52_at (k : Fin EE) (d : FVec Ideal S100000 .f32) (w : FVec Ideal S1600000 .f32)
    (hd : (V main_v12 : FVec Ideal S100000 .f32) = d)
    (hw : (V main_arg2 : FVec Ideal S1600000 .f32) = w) :
    (after (hostOps0_4 (F := Ideal)) V main_v52 : FVec Ideal S1600000 .f32) (ix1 k)
      = d (ix1 (gnode ((V main_v1 : IVec S1600000 32) (ix1 (edgeAt V k))))) * w (ix1 (edgeAt V k))
        * d (ix1 (gnode ((V main_v3 : IVec S1600000 32) (ix1 (edgeAt V k))))) := by
  have h : (after (hostOps0_4 (F := Ideal)) V main_v52 : FVec Ideal S1600000 .f32)
      = mulf (F := Ideal) (s := S1600000) (φ := .f32)
          (mulf (F := Ideal) (s := S1600000) (φ := .f32)
            (takeN (V main_v12 : FVec Ideal S100000 .f32) (takeE (V main_v1 : IVec S1600000 32) (V main_v15)))
            (takeE (V main_arg2 : FVec Ideal S1600000 .f32) (V main_v15)))
          (takeN (V main_v12 : FVec Ideal S100000 .f32) (takeE (V main_v3 : IVec S1600000 32) (V main_v15))) := by
    after_results_simp <;> rfl
  subst hd hw
  rw [h, mulf_apply, mulf_apply, takeN_apply, takeE_apply, takeE_apply, takeN_apply, takeE_apply]

theorem h04_v53_at (i : Fin NN) :
    (after (hostOps0_4 (F := Ideal)) V main_v53 : IVec S100000x1 32) (ix2 i 0)
      = (V main_arg3 : IVec S100000 32) (ix1 i) := by
  have h : (after (hostOps0_4 (F := Ideal)) V main_v53 : IVec S100000x1 32)
      = shapeCast S100000x1 (V main_arg3 : IVec S100000 32) shapeCasts_S100000_S100000x1 := by
    after_results_simp <;> rfl
  rw [h, Words.shapeCast_a_a1_apply]

end Cert.KernelIdeal.Val

end
-- ==== Proof.Val.Host.lean ====
import proofs.«403409_j10926396801662_3_alg».proof.Proof.Val.HostPre

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx GCN
open scoped BigOperators

variable (V : Valuation τ sig (Elt Ideal))

theorem keep0 (r : Ref sig .tc) (h : r ∉ hostOps0_W) : after (hostOps0 (F := Ideal)) V r = V r :=
  after_of_writes_sub hostOps0 V hostOps0_writes h
theorem keep01 (r : Ref sig .tc) (h : r ∉ hostOps0_1_W) : after (hostOps0_1 (F := Ideal)) V r = V r :=
  after_of_writes_sub hostOps0_1 V hostOps0_1_writes h
theorem keep02 (r : Ref sig .tc) (h : r ∉ hostOps0_2_W) : after (hostOps0_2 (F := Ideal)) V r = V r :=
  after_of_writes_sub hostOps0_2 V hostOps0_2_writes h
theorem keep03 (r : Ref sig .tc) (h : r ∉ hostOps0_3_W) : after (hostOps0_3 (F := Ideal)) V r = V r :=
  after_of_writes_sub hostOps0_3 V hostOps0_3_writes h
theorem keep04 (r : Ref sig .tc) (h : r ∉ hostOps0_4_W) : after (hostOps0_4 (F := Ideal)) V r = V r :=
  after_of_writes_sub hostOps0_4 V hostOps0_4_writes h

section Chain

variable (W0 P1 P2 P3 P4 P5 : Valuation τ sig (Elt Ideal))

abbrev rowOf : Fin EE → BitVec 32 := fun e => (W0 main_arg1 : IVec S2x1600000 32) (ix2 0 e)
abbrev colOf : Fin EE → BitVec 32 := fun e => (W0 main_arg1 : IVec S2x1600000 32) (ix2 1 e)
abbrev ewOf : Fin EE → EReal := A1 (W0 main_arg2 : FVec Ideal S1600000 .f32)

theorem pre_perm (h4 : P4 = after (hostOps0_3 (F := Ideal)) P3) :
    ∃ σ : Equiv.Perm (Fin EE), ∀ k : Fin EE, (P4 main_v15 : IVec S1600000 32) (ix1 k) = BitVec.ofNat 32 (σ k).val := by
  rw [h4, h03_v15]
  generalize (P3 main_v3 : IVec S1600000 32) = keys
  obtain ⟨σ, hσ⟩ := GraphOps.argsort_perm comparator_i32_i32_d0 keys
  exact ⟨σ, fun k => (hσ k).1⟩

variable (h1 : P1 = after (hostOps0 (F := Ideal)) W0) (h2 : P2 = after (hostOps0_1 (F := Ideal)) P1)
include h1 h2

theorem pre_dinv (i : Fin NN) : (P2 main_v12 : FVec Ideal S100000 .f32) (ix1 i) = dinv (colOf W0) (ewOf W0) i := by
  rw [h2, h01_v12_at P1 i (P1 main_v8) (by rw [h1]; exact h0_v10 W0) (by rw [h1]; exact h0_v11 W0) (by rw [h1]; exact h0_cst_2 W0),
    h1, h0_v8_at]
  rfl

variable (h3 : P3 = after (hostOps0_2 (F := Ideal)) P2) (h4 : P4 = after (hostOps0_3 (F := Ideal)) P3)
  (h5 : P5 = after (hostOps0_4 (F := Ideal)) P4)
include h3 h4 h5

theorem host_dinv2 (i : Fin NN) :
    (P5 main_v14 : FVec Ideal S100000x1 .f32) (ix2 i 0) = dinv (colOf W0) (ewOf W0) i * dinv (colOf W0) (ewOf W0) i := by
  have k5 : P5 main_v14 = P4 main_v14 := by rw [h5]; exact keep04 P4 main_v14 (by decide)
  have k4 : P4 main_v14 = P3 main_v14 := by rw [h4]; exact keep03 P3 main_v14 (by decide)
  rw [k5, k4, h3, h02_v14_at P2 i (P2 main_v12) rfl, pre_dinv W0 P1 P2 h1 h2 i]

theorem host_batch (i : Fin NN) :
    (P5 main_v53 : IVec S100000x1 32) (ix2 i 0) = (W0 main_arg3 : IVec S100000 32) (ix1 i) := by
  rw [h5, h04_v53_at, h4, keep03 P3 main_arg3 (by decide), h3, keep02 P2 main_arg3 (by decide), h2, keep01 P1 main_arg3 (by decide),
    h1, keep0 W0 main_arg3 (by decide)]

/-- Position `k` of the three sorted tables holds the row word, column word and normalisation of one edge `σ k`. -/
theorem host_sorted : ∃ σ : Equiv.Perm (Fin EE), ∀ k : Fin EE,
      (P5 main_v22 : IVec S1600000 32) (ix1 k) = rowOf W0 (σ k) ∧
      (P5 main_v29 : IVec S1600000 32) (ix1 k) = colOf W0 (σ k) ∧
      (P5 main_v52 : FVec Ideal S1600000 .f32) (ix1 k) = nrm (rowOf W0) (colOf W0) (ewOf W0) (σ k) := by
  obtain ⟨σ, hσ⟩ := pre_perm P3 P4 h4
  refine ⟨σ, fun k => ?_⟩
  subst h5
  have hn : edgeAt P4 k = σ k :=
    (congrArg (node EE (by decide)) (hσ k)).trans (Words.node_ofNat EE (by decide) (by decide) (σ k).val (σ k).isLt)
  have k1 : P4 main_v1 = P1 main_v1 := by
    rw [h4, keep03 P3 main_v1 (by decide), h3, keep02 P2 main_v1 (by decide), h2, keep01 P1 main_v1 (by decide)]
  have k3 : P4 main_v3 = P1 main_v3 := by
    rw [h4, keep03 P3 main_v3 (by decide), h3, keep02 P2 main_v3 (by decide), h2, keep01 P1 main_v3 (by decide)]
  have ka : P4 main_arg2 = W0 main_arg2 := by
    rw [h4, keep03 P3 main_arg2 (by decide), h3, keep02 P2 main_arg2 (by decide), h2, keep01 P1 main_arg2 (by decide),
      h1, keep0 W0 main_arg2 (by decide)]
  have k12 : P4 main_v12 = P2 main_v12 := by
    rw [h4, keep03 P3 main_v12 (by decide), h3, keep02 P2 main_v12 (by decide)]
  refine ⟨?_, ?_, ?_⟩
  · rw [h04_v22_at, hn, k1, h1, h0_v1_at]
  · rw [h04_v29_at, hn, k3, h1, h0_v3_at]
  · rw [h04_v52_at P4 k (P2 main_v12) (W0 main_arg2) k12 ka, hn, k1, k3, h1, h0_v1_at, h0_v3_at, pre_dinv W0 P1 P2 h1 h2, pre_dinv W0 P1 P2 h1 h2]
    rfl

end Chain

end Cert.KernelIdeal.Val

end
-- ==== Proof.Val.HostMid.lean ====
import proofs.«403409_j10926396801662_3_alg».proof.Proof.Val.HostPre

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx GCN

variable (V : Valuation τ sig (Elt Ideal))

/-- The rows the source words name, each scaled by its edge's weight, added into zeros at the rows the target words land on. -/
def aggTerm (tbl : FVec Ideal S100000x64 .bf16) (rowW colW : IVec S1600000 32)
    (wt : FVec Ideal S1600000 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 colW)
    (mulf (F := Ideal) (s := S1600000x64) (φ := .f32)
      (extf (F := Ideal) .f32 (Host.gather gather_S100000x64_S1600000x1_S1600000x64_1_0_n_n_0_1_164 tbl (wrapCol 100000#32 rowW))
        bitsLt_bf16_f32)
      (broadcastInDim S1600000x64 ![0, 1] bcast_S1600000x1_S1600000x64_0_1
        (broadcastInDim S1600000x1 ![0] bcast_S1600000_S1600000x1_0 wt)))

theorem scatter2_at (x0 : FVec Ideal S100000x64 .f32) (idxc : IVec S1600000x1 32) (upd : FVec Ideal S1600000x64 .f32)
    (i : Fin NN) (d : Fin 64) :
    Host.scatterAdd (F := Ideal) (φ := .f32) scatter_S100000x64_S1600000x1_S1600000x64_1_0_0_1 x0 idxc upd (ix2 i d)
      = x0 (ix2 i d) + ∑ k : Fin EE, if hit (idxc (ix2 k 0)) i.val then upd (ix2 k d) else 0 :=
  GraphOps.scatterAdd_rows2 scatter_S100000x64_S1600000x1_S1600000x64_1_0_0_1 rfl rfl rfl rfl x0 idxc upd i d

theorem gather2_at {α : Type} (tbl : S100000x64.Idx → α) (x : IVec S1600000 32) (k : Fin EE) (d : Fin 64) :
    Host.gather gather_S100000x64_S1600000x1_S1600000x64_1_0_n_n_0_1_164 tbl (wrapCol 100000#32 x) (ix2 k d)
      = tbl (ix2 (gnode (x (ix1 k))) d) := by
  rw [GraphOps.gather_rows2 gather_S100000x64_S1600000x1_S1600000x64_1_0_n_n_0_1_164 rfl rfl rfl rfl rfl tbl _ k d (by decide)]
  exact congrArg (fun r => tbl (ix2 r d)) (Words.node_of_wrapped NN (by decide) (x (ix1 k)) _ (wrapCol_apply 100000 x k 0) _)

/-- The scatter is the exact sum over the edges landing on `i`, and each take reads the node its wrapped word names. -/
theorem aggTerm_apply (tbl : FVec Ideal S100000x64 .bf16) (rowW colW : IVec S1600000 32)
    (wt : FVec Ideal S1600000 .f32) (i : Fin NN) (d : Fin 64) :
    aggTerm tbl rowW colW wt (ix2 i d)
      = ∑ k : Fin EE, if hit (colW (ix1 k)) i.val then tbl (ix2 (gnode (rowW (ix1 k))) d) * wt (ix1 k) else 0 := by
  unfold aggTerm
  rw [scatter2_at, Words.bcast_scalar_apply, Words.constant_zero_f32, zero_add]
  refine Finset.sum_congr rfl fun k _ => ?_
  rw [Words.bcast_col_apply, mulf_apply, extf_apply, gather2_at, Words.bcast_of_col_apply, Words.bcast_col_apply]

theorem host_agg (i : Fin NN) (d : Fin 64) :
    @Eq EReal ((after (hostOps1 (F := Ideal)) V main_v68 : FVec Ideal S100000x64 .f32) (ix2 i d))
      (∑ k : Fin EE, if hit (A1 (α := BitVec 32) (V main_v29) k) i.val
          then A2 (α := EReal) (V main_v54) (gnode (A1 (α := BitVec 32) (V main_v22) k)) d * A1 (α := EReal) (V main_v52) k
          else 0) := by
  have h : (after (hostOps1 (F := Ideal)) V main_v68 : FVec Ideal S100000x64 .f32)
      = aggTerm (V main_v54) (V main_v22) (V main_v29) (V main_v52) := by after_results_simp <;> rfl
  rw [h]; exact aggTerm_apply _ _ _ _ i d

theorem host_agg2 (i : Fin NN) (d : Fin 64) :
    @Eq EReal ((after (hostOps2 (F := Ideal)) V main_v84 : FVec Ideal S100000x64 .f32) (ix2 i d))
      (∑ k : Fin EE, if hit (A1 (α := BitVec 32) (V main_v29) k) i.val
          then A2 (α := EReal) (V main_v70) (gnode (A1 (α := BitVec 32) (V main_v22) k)) d * A1 (α := EReal) (V main_v52) k
          else 0) := by
  have h : (after (hostOps2 (F := Ideal)) V main_v84 : FVec Ideal S100000x64 .f32)
      = aggTerm (V main_v70) (V main_v22) (V main_v29) (V main_v52) := by after_results_simp <;> rfl
  rw [h]; exact aggTerm_apply _ _ _ _ i d

theorem host_bias (d : Fin 64) :
    (after (hostOps1 (F := Ideal)) V main_v69 : FVec Ideal S1x64 .f32) (ix2 0 d)
      = (V main_arg5 : FVec Ideal S64 .f32) (ix1 d) := by
  after_results; exact shapeCast_a_1a_apply _ _ 0 d

theorem host_bias2 (d : Fin 64) :
    (after (hostOps2 (F := Ideal)) V main_v85 : FVec Ideal S1x64 .f32) (ix2 0 d)
      = (V main_arg7 : FVec Ideal S64 .f32) (ix1 d) := by
  after_results; exact shapeCast_a_1a_apply _ _ 0 d

theorem host_bc1 (q : Fin 32) :
    (after (hostOps2 (F := Ideal)) V main_v86 : FVec Ideal S1x32 .f32) (ix2 0 q)
      = (V main_arg9 : FVec Ideal S32 .f32) (ix1 q) := by
  after_results; exact shapeCast_a_1a_apply _ _ 0 q

theorem host_bc2 (j : Fin 10) :
    (after (hostOps2 (F := Ideal)) V main_v87 : FVec Ideal S1x10 .f32) (ix2 0 j)
      = (V main_arg11 : FVec Ideal S10 .f32) (ix1 j) := by
  after_results; exact shapeCast_a_1a_apply _ _ 0 j

end Cert.KernelIdeal.Val

end
-- ==== Proof.Val.Kernel.lean ====
import proofs.«403409_j10926396801662_3_alg».proof.Proof.KI.Run
import proofs.«403409_j10926396801662_3_alg».proof.Proof.Val.Fold
import proofs.«403409_j10926396801662_3_alg».proof.Proof.Val.R0
import proofs.«403409_j10926396801662_3_alg».proof.Proof.Val.R1
import proofs.«403409_j10926396801662_3_alg».proof.Proof.Val.R2
import proofs.«403409_j10926396801662_3_alg».proof.Proof.Val.Host
import proofs.«403409_j10926396801662_3_alg».proof.Proof.Val.HostMid
import proofs.«403409_j10926396801662_3_alg».proof.Proof.LibGraphOps
import proofs.«403409_j10926396801662_3_alg».proof.Proof.Spec

noncomputable section

namespace Cert.KernelIdeal.Val

open Idealize.ShloMosaic Idealize.ShloMosaic.TcCoe Idealize.ShloMosaic.ValueIdx Idealize.SL.Sem
open Cert.KernelIdeal Cert.KernelIdeal.Gen GCN
open scoped BigOperators

theorem layer_of_parts (row col : Fin EE → BitVec 32) (ew : Fin EE → EReal) (h : Fin NN → Fin 64 → EReal) (b : Fin 64 → EReal)
    (g h' : Fin NN → Fin 64 → EReal) (d2 : Fin NN → EReal) (bb : Fin 64 → EReal)
    (hg : ∀ i d, g i d = agg row col ew h i d) (hd2 : ∀ i, d2 i = dinv col ew i * dinv col ew i)
    (hh : ∀ i d, h' i d = h i d) (hb : ∀ d, bb d = b d) :
    (fun i d => max (g i d + d2 i * h' i d + bb d) 0) = layer row col ew h b :=
  funext fun i => funext fun d => by
    show max (g i d + d2 i * h' i d + bb d) 0 = max (agg row col ew h i d + dinv col ew i * dinv col ew i * h i d + b d) 0
    rw [hg i d, hd2 i, hh i d, hb d]

theorem mm_congr {n k d : ℕ} {a a' : Fin n → Fin k → EReal} {b b' : Fin k → Fin d → EReal} (ha : ∀ i l, a i l = a' i l)
    (hb : ∀ l j, b l j = b' l j) (i : Fin n) (j : Fin d) : mm a b i j = mm a' b' i j :=
  Finset.sum_congr rfl fun l _ => by rw [ha i l, hb l j]

section Fold
variable (m : (ℓ : Loc nD τ sig) → Buf (Elt Ideal) ℓ) (ρ : Dev nD → PrngReg) (c : Dev nD)

abbrev rowA : Fin EE → BitVec 32 := fun e => (m ((c : Thread nD τ).loc main_arg1) : S2x1600000.Idx → BitVec 32) (ix2 0 e)
abbrev colA : Fin EE → BitVec 32 := fun e => (m ((c : Thread nD τ).loc main_arg1) : S2x1600000.Idx → BitVec 32) (ix2 1 e)
abbrev ewA : Fin EE → EReal := A1 (m ((c : Thread nD τ).loc main_arg2) : S1600000.Idx → EReal)
abbrev batA : Fin NN → BitVec 32 := A1 (m ((c : Thread nD τ).loc main_arg3) : S100000.Idx → BitVec 32)
abbrev xA : Fin NN → Fin 128 → EReal := A2 (m ((c : Thread nD τ).loc main_arg0) : S100000x128.Idx → EReal)
abbrev W1A : Fin 128 → Fin 64 → EReal := A2 (m ((c : Thread nD τ).loc main_arg4) : S128x64.Idx → EReal)
abbrev b1A : Fin 64 → EReal := A1 (m ((c : Thread nD τ).loc main_arg5) : S64.Idx → EReal)
abbrev W2A : Fin 64 → Fin 64 → EReal := A2 (m ((c : Thread nD τ).loc main_arg6) : S64x64.Idx → EReal)
abbrev b2A : Fin 64 → EReal := A1 (m ((c : Thread nD τ).loc main_arg7) : S64.Idx → EReal)
abbrev bc1A : Fin 32 → EReal := A1 (m ((c : Thread nD τ).loc main_arg9) : S32.Idx → EReal)
abbrev bc2A : Fin 10 → EReal := A1 (m ((c : Thread nD τ).loc main_arg11) : S10.Idx → EReal)

theorem v14_5 (i : Fin NN) :
    (Hand.V5 m ρ c main_v14 : S100000x1.Idx → EReal) (ix2 i (0 : Fin 1))
      = dinv (colA m c) (ewA m c) i * dinv (colA m c) (ewA m c) i :=
  host_dinv2 (Hand.W0 m ρ c) (Hand.W1 m ρ c) (Hand.W2 m ρ c) (Hand.W3 m ρ c) (Hand.W4 m ρ c) (Hand.W5 m ρ c) rfl rfl rfl rfl rfl i

theorem sorted_5 : ∃ σ : Equiv.Perm (Fin EE), ∀ k : Fin EE,
    (Hand.V5 m ρ c main_v22 : S1600000.Idx → BitVec 32) (ix1 k) = rowA m c (σ k)
    ∧ (Hand.V5 m ρ c main_v29 : S1600000.Idx → BitVec 32) (ix1 k) = colA m c (σ k)
    ∧ (Hand.V5 m ρ c main_v52 : S1600000.Idx → EReal) (ix1 k) = nrm (rowA m c) (colA m c) (ewA m c) (σ k) :=
  host_sorted (Hand.W0 m ρ c) (Hand.W1 m ρ c) (Hand.W2 m ρ c) (Hand.W3 m ρ c) (Hand.W4 m ρ c) (Hand.W5 m ρ c) rfl rfl rfl rfl rfl

/-- An edges' sum read through the sorted tables is the edges' sum: the tables are the edge tables run through one permutation. -/
theorem agg_5 (T22 T29 : S1600000.Idx → BitVec 32) (T52 : S1600000.Idx → EReal)
    (h22 : T22 = Hand.V5 m ρ c main_v22) (h29 : T29 = Hand.V5 m ρ c main_v29) (h52 : T52 = Hand.V5 m ρ c main_v52)
    (T h : Fin NN → Fin 64 → EReal) (hT : ∀ p d, T p d = h p d) (i : Fin NN) (d : Fin 64) :
    (∑ k : Fin EE, if hit (T29 (ix1 k)) i.val then T (gnode (T22 (ix1 k))) d * T52 (ix1 k) else 0)
      = agg (rowA m c) (colA m c) (ewA m c) h i d := by
  subst h22 h29 h52
  obtain ⟨σ, hσ⟩ := sorted_5 m ρ c
  refine Eq.trans (Finset.sum_congr rfl fun k _ => ?_) (GraphOps.sum_ite_perm σ (fun e => hit (colA m c e) i.val)
    (fun e => h (gnode (rowA m c e)) d * nrm (rowA m c) (colA m c) (ewA m c) e))
  rw [(hσ k).1, (hσ k).2.1, (hσ k).2.2, hT]

theorem v54_6 (p : Fin NN) (q : Fin 64) :
    (Hand.V6 m ρ c main_v54 : S100000x64.Idx → EReal) (ix2 p q) = mm (xA m c) (W1A m c) p q := by
  refine (congrFun (v6_main_v54 m ρ c) (ix2 p q)).trans ((r0_value (Hand.V5 m ρ) c p q).trans ?_)
  exact mm_congr (fun i l => congrFun (a0 m ρ c).v5 (ix2 i l)) (fun l j => congrFun (a4 m ρ c).v5 (ix2 l j)) p q

theorem v70_8 (p : Fin NN) (q : Fin 64) :
    (Hand.V8 m ρ c main_v70 : S100000x64.Idx → EReal) (ix2 p q)
      = mm (layer (rowA m c) (colA m c) (ewA m c) (mm (xA m c) (W1A m c)) (b1A m c)) (W2A m c) p q := by
  refine (congrFun (v8_main_v70 m ρ c) (ix2 p q)).trans ((r1_value (Hand.V7 m ρ) c p q).trans ?_)
  have hl := layer_of_parts (rowA m c) (colA m c) (ewA m c) (mm (xA m c) (W1A m c)) (b1A m c)
    (A2 (Hand.V7 m ρ c main_v68 : S100000x64.Idx → EReal)) (A2 (Hand.V7 m ρ c main_v54 : S100000x64.Idx → EReal))
    (fun i => (Hand.V7 m ρ c main_v14 : S100000x1.Idx → EReal) (ix2 i (0 : Fin 1)))
    (fun d => (Hand.V7 m ρ c main_v69 : S1x64.Idx → EReal) (ix2 (0 : Fin 1) d))
    (fun i d => (host_agg (Hand.W6 m ρ c) i d).trans
      (agg_5 m ρ c _ _ _ (k22 m ρ c).v6 (k29 m ρ c).v6 (k52 m ρ c).v6 _ _ (v54_6 m ρ c) i d))
    (fun i => (congrFun (k14 m ρ c).v7 (ix2 i (0 : Fin 1))).trans (v14_5 m ρ c i))
    (fun p q => (congrFun (k54 m ρ c) (ix2 p q)).trans (v54_6 m ρ c p q))
    (fun d => (host_bias (Hand.W6 m ρ c) d).trans (congrFun (a5 m ρ c).v6 (ix1 d)))
  exact mm_congr (fun i l => congrFun (congrFun hl i) l) (fun l j => congrFun (a6 m ρ c).v7 (ix2 l j)) p q

end Fold

theorem kernel_value (m : (ℓ : Loc nD τ sig) → Buf (Elt Ideal) ℓ) (ρ : Dev nD → PrngReg) (c : Dev nD) (g : Fin 128) (j : Fin 10) :
    (Cert.KernelIdeal.Hand.W10 m ρ c (Proc.devRef .tc main_v88) : S128x10.Idx → EReal) (ix2 g j)
      = GCN.out (fun e => (m ((c.tc : Thread nD τ).loc main_arg1) : S2x1600000.Idx → BitVec 32) (ix2 0 e))
          (fun e => (m ((c.tc : Thread nD τ).loc main_arg1) : S2x1600000.Idx → BitVec 32) (ix2 1 e))
          (A1 (m ((c.tc : Thread nD τ).loc main_arg2))) (A1 (m ((c.tc : Thread nD τ).loc main_arg3)))
          (A2 (m ((c.tc : Thread nD τ).loc main_arg0))) (A2 (m ((c.tc : Thread nD τ).loc main_arg4)))
          (A1 (m ((c.tc : Thread nD τ).loc main_arg5))) (A2 (m ((c.tc : Thread nD τ).loc main_arg6)))
          (A1 (m ((c.tc : Thread nD τ).loc main_arg7))) (A2 (m ((c.tc : Thread nD τ).loc main_arg8)))
          (A1 (m ((c.tc : Thread nD τ).loc main_arg9))) (A2 (m ((c.tc : Thread nD τ).loc main_arg10)))
          (A1 (m ((c.tc : Thread nD τ).loc main_arg11))) g j := by
  refine (congrFun (v10_main_v88 m ρ c) (ix2 g j)).trans ((r2_value (Hand.V9 m ρ) c g j).trans ?_)
  have ha := layer_of_parts (rowA m c) (colA m c) (ewA m c)
    (mm (layer (rowA m c) (colA m c) (ewA m c) (mm (xA m c) (W1A m c)) (b1A m c)) (W2A m c)) (b2A m c)
    (A2 (Hand.V9 m ρ c main_v84 : S100000x64.Idx → EReal)) (A2 (Hand.V9 m ρ c main_v70 : S100000x64.Idx → EReal))
    (fun i => (Hand.V9 m ρ c main_v14 : S100000x1.Idx → EReal) (ix2 i (0 : Fin 1)))
    (fun d => (Hand.V9 m ρ c main_v85 : S1x64.Idx → EReal) (ix2 (0 : Fin 1) d))
    (fun i d => (host_agg2 (Hand.W8 m ρ c) i d).trans
      (agg_5 m ρ c _ _ _ (k22 m ρ c).v8 (k29 m ρ c).v8 (k52 m ρ c).v8 _ _ (v70_8 m ρ c) i d))
    (fun i => (congrFun (k14 m ρ c).v9 (ix2 i (0 : Fin 1))).trans (v14_5 m ρ c i))
    (fun p q => (congrFun (k70 m ρ c) (ix2 p q)).trans (v70_8 m ρ c p q))
    (fun d => (host_bias2 (Hand.W8 m ρ c) d).trans (congrFun (a7 m ρ c).v8 (ix1 d)))
  have hB : R2.bat (Hand.V9 m ρ) c = batA m c := funext fun i => (congrFun (k53 m ρ c).v9 (ix2 i (0 : Fin 1))).trans
    (host_batch (Hand.W0 m ρ c) (Hand.W1 m ρ c) (Hand.W2 m ρ c) (Hand.W3 m ρ c) (Hand.W4 m ρ c) (Hand.W5 m ρ c) rfl rfl rfl rfl rfl i)
  have h86 : R2.rowOf (Hand.V9 m ρ c main_v86) = bc1A m c :=
    funext fun q => (host_bc1 (Hand.W8 m ρ c) q).trans (congrFun (a9 m ρ c).v8 (ix1 q))
  have h87 : R2.rowOf (Hand.V9 m ρ c main_v87) = bc2A m c :=
    funext fun q => (host_bc2 (Hand.W8 m ρ c) q).trans (congrFun (a11 m ρ c).v8 (ix1 q))
  rw [show R2.a2 (Hand.V9 m ρ) c = _ from ha, hB, h86, h87, (a8 m ρ c).v9, (a10 m ρ c).v9]
  rfl

end Cert.KernelIdeal.Val

end
-- ==== Proof.Ref.LayerSum.lean ====
import proofs.«403409_j10926396801662_3_alg».proof.Proof.Spec
import proofs.«403409_j10926396801662_3_alg».proof.Proof.LibWords
import Mathlib.Algebra.BigOperators.Fin

noncomputable section

namespace Cert.ReferenceIdeal.RefValue

open GCN Idealize.ShloMosaic
open scoped BigOperators

def edgePos (e : Fin EE) : Fin 1700000 := ⟨e.val, by have h : e.val < 1600000 := e.isLt; omega⟩

def loopPos (j : Fin NN) : Fin 1700000 := ⟨1600000 + j.val, by have h : j.val < 100000 := j.isLt; omega⟩

def dvOf (c : Fin 1700000 → BitVec 32) (w : Fin 1700000 → EReal) (p : Fin NN) : EReal :=
  dinvOf (∑ k : Fin 1700000, if hit (c k) p.val then w k else 0)

theorem sum_joined (f : Fin 1700000 → EReal) :
    ∑ k, f k = (∑ e : Fin EE, f (edgePos e)) + ∑ j : Fin NN, f (loopPos j) :=
  Fin.sum_univ_add (a := 1600000) (b := 100000) f

theorem loop_hit (j i : Fin NN) : hit (BitVec.ofNat 32 j.val) i.val ↔ j = i := by
  have hj : j.val < 100000 := j.isLt
  rw [Words.hit_ofNat j.val i.val (lt_trans hj (by norm_num))]
  exact Fin.val_inj

theorem gnode_loop (j : Fin NN) : gnode (BitVec.ofNat 32 j.val) = j :=
  Words.node_ofNat NN (by decide) (by norm_num) j.val j.isLt

-- Exactly one loop lands on each node, with weight one.
theorem dvOf_eq (col : Fin EE → BitVec 32) (ew : Fin EE → EReal) (c : Fin 1700000 → BitVec 32) (w : Fin 1700000 → EReal)
    (hc0 : ∀ e : Fin EE, c (edgePos e) = col e) (hc1 : ∀ j : Fin NN, c (loopPos j) = BitVec.ofNat 32 j.val)
    (hw0 : ∀ e : Fin EE, w (edgePos e) = ew e) (hw1 : ∀ j : Fin NN, w (loopPos j) = 1) (p : Fin NN) :
    dvOf c w p = GCN.dinv col ew p := by
  unfold dvOf GCN.dinv GCN.deg
  rw [sum_joined]
  simp only [hc0, hw0, hc1, hw1, loop_hit]
  rw [Finset.sum_ite_eq', if_pos (Finset.mem_univ _)]

-- The edges' positions sum to `agg`; of the loops' positions only node `i`'s own lands on `i`.
theorem layer_of_concat (row col : Fin EE → BitVec 32) (ew : Fin EE → EReal)
    (r c : Fin 1700000 → BitVec 32) (w : Fin 1700000 → EReal)
    (hr0 : ∀ e : Fin EE, r (edgePos e) = row e) (hr1 : ∀ j : Fin NN, r (loopPos j) = BitVec.ofNat 32 j.val)
    (hc0 : ∀ e : Fin EE, c (edgePos e) = col e) (hc1 : ∀ j : Fin NN, c (loopPos j) = BitVec.ofNat 32 j.val)
    (hw0 : ∀ e : Fin EE, w (edgePos e) = ew e) (hw1 : ∀ j : Fin NN, w (loopPos j) = 1)
    (h : Fin NN → Fin 64 → EReal) (b : Fin 64 → EReal) (i : Fin NN) (d : Fin 64) :
    max ((∑ k : Fin 1700000, if hit (c k) i.val
        then h (gnode (r k)) d * (dvOf c w (gnode (r k)) * w k * dvOf c w (gnode (c k))) else 0) + b d) 0
      = GCN.layer row col ew h b i d := by
  unfold GCN.layer
  rw [sum_joined]
  simp only [hr0, hc0, hw0, hr1, hc1, hw1, loop_hit, gnode_loop, dvOf_eq col ew c w hc0 hc1 hw0 hw1]
  rw [Finset.sum_ite_eq', if_pos (Finset.mem_univ _), mul_one, mul_comm (h i d)]
  rfl

end Cert.ReferenceIdeal.RefValue

end
-- ==== Proof.Ref.Layer1.lean ====
import proofs.«403409_j10926396801662_3_alg».proof.Proof.Gen.ReferenceIdeal.Read
import proofs.«403409_j10926396801662_3_alg».proof.Proof.Spec
import proofs.«403409_j10926396801662_3_alg».proof.Proof.LibWords
import proofs.«403409_j10926396801662_3_alg».proof.Proof.LibGraphOps
import proofs.«403409_j10926396801662_3_alg».proof.Proof.Ref.LayerSum

noncomputable section

namespace Cert.ReferenceIdeal.RefValue

open Cert.ReferenceIdeal Cert.ReferenceIdeal.Gen Idealize.ShloMosaic Idealize.ShloMosaic.ValueIdx GCN
open scoped BigOperators

section Ops
variable {α : Type}

theorem join_edge (x : S1600000.Idx → α) (y : S100000.Idx → α) (e : Fin EE) :
    concatenate S1700000 0 [⟨S1600000, x⟩, ⟨S100000, y⟩] concatenates_S1600000_S100000_S1700000_d0 (ix1 (edgePos e))
      = x (ix1 e) := by
  refine concatenate_pair_apply_left 0 x y _ (ix1 (edgePos e)) rfl (ix1 e) fun b => ?_
  match b with
  | ⟨0, _⟩ => rfl

theorem join_loop (x : S1600000.Idx → α) (y : S100000.Idx → α) (j : Fin NN) :
    concatenate S1700000 0 [⟨S1600000, x⟩, ⟨S100000, y⟩] concatenates_S1600000_S100000_S1700000_d0 (ix1 (loopPos j))
      = y (ix1 j) :=
  concatenate_pair_apply_right 0 x y _ (ix1 (loopPos j)) rfl rfl (ix1 j) (fun _ hne => absurd (Subsingleton.elim _ _) hne)
    (Nat.add_comm j.val 1600000)

theorem scatter1_read (x : S100000.Idx → EReal) (idx : IVec S1700000x1 32) (upd : S1700000.Idx → EReal) (p : Fin 100000) :
    Host.scatterAdd (F := Ideal) (φ := .f32) scatter_S100000_S1700000x1_S1700000_n_0_0_1 x idx upd (ix1 p)
      = x (ix1 p) + ∑ k : Fin 1700000, if hit (idx (ix2 k (0 : Fin 1))) p.val then upd (ix1 k) else 0 :=
  GraphOps.scatterAdd_rows1 scatter_S100000_S1700000x1_S1700000_n_0_0_1 rfl rfl rfl rfl x idx upd p

theorem scatter2_read (x : S100000x64.Idx → EReal) (idx : IVec S1700000x1 32) (upd : S1700000x64.Idx → EReal)
    (i : Fin 100000) (d : Fin 64) :
    Host.scatterAdd (F := Ideal) (φ := .f32) scatter_S100000x64_S1700000x1_S1700000x64_1_0_0_1 x idx upd (ix2 i d)
      = x (ix2 i d) + ∑ k : Fin 1700000, if hit (idx (ix2 k (0 : Fin 1))) i.val then upd (ix2 k d) else 0 :=
  GraphOps.scatterAdd_rows2 scatter_S100000x64_S1700000x1_S1700000x64_1_0_0_1 rfl rfl rfl rfl x idx upd i d

-- A take whose index word is the wrap of `v` reads the node of `v`.
theorem gather1_read (x : S100000.Idx → α) (idx : IVec S1700000x1 32) (k : Fin 1700000) (v : BitVec 32)
    (hv : idx (ix2 k (0 : Fin 1)) = wrap 100000 v) :
    Host.gather gather_S100000_S1700000x1_S1700000_n_0_n_n_0_1_1 x idx (ix1 k) = x (ix1 (gnode v)) :=
  (GraphOps.gather_rows1 gather_S100000_S1700000x1_S1700000_n_0_n_n_0_1_1 rfl rfl rfl rfl x idx k (by decide)).trans
    (congrArg (fun q : Fin 100000 => x (ix1 q)) (Words.node_of_wrapped 100000 (by decide) v _ hv _))

theorem gather2_read (x : S100000x64.Idx → α) (idx : IVec S1700000x1 32) (k : Fin 1700000) (d : Fin 64) (v : BitVec 32)
    (hv : idx (ix2 k (0 : Fin 1)) = wrap 100000 v) :
    Host.gather gather_S100000x64_S1700000x1_S1700000x64_1_0_n_n_0_1_164 x idx (ix2 k d) = x (ix2 (gnode v) d) :=
  (GraphOps.gather_rows2 gather_S100000x64_S1700000x1_S1700000x64_1_0_n_n_0_1_164 rfl rfl rfl rfl rfl x idx k d (by decide)).trans
    (congrArg (fun q : Fin 100000 => x (ix2 q d)) (Words.node_of_wrapped 100000 (by decide) v _ hv _))

end Ops

section Chain

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x4 : (⟨S128x64, .f32⟩ : BufTy).Contents (Elt Ideal))
  (x5 : (⟨S64, .f32⟩ : BufTy).Contents (Elt Ideal))

abbrev srcW : Fin 1700000 → BitVec 32 := fun k => Read.val_main_v5 (F := Ideal) x1 (ix1 k)
abbrev dstW : Fin 1700000 → BitVec 32 := fun k => Read.val_main_v6 (F := Ideal) x1 (ix1 k)
abbrev wtW : Fin 1700000 → EReal := fun k => Read.val_main_v8 (F := Ideal) x2 (ix1 k)

theorem src_edge (e : Fin EE) : srcW x1 (edgePos e) = x1 (ix2 (0 : Fin 2) e) := by
  show Read.val_main_v5 (F := Ideal) x1 (ix1 (edgePos e)) = _
  unfold Read.val_main_v5
  rw [join_edge, Read.val_main_v1_apply, Read.val_main_v0_apply]
  exact congrArg x1 (Shape.idx_ext₂ rfl (Nat.mod_eq_of_lt e.isLt))

theorem src_loop (j : Fin NN) : srcW x1 (loopPos j) = BitVec.ofNat 32 j.val := by
  show Read.val_main_v5 (F := Ideal) x1 (ix1 (loopPos j)) = _
  unfold Read.val_main_v5
  rw [join_loop]
  rfl

theorem dst_edge (e : Fin EE) : dstW x1 (edgePos e) = x1 (ix2 (1 : Fin 2) e) := by
  show Read.val_main_v6 (F := Ideal) x1 (ix1 (edgePos e)) = _
  unfold Read.val_main_v6
  rw [join_edge, Read.val_main_v3_apply, Read.val_main_v2_apply]
  exact congrArg x1 (Shape.idx_ext₂ rfl (Nat.mod_eq_of_lt e.isLt))

theorem dst_loop (j : Fin NN) : dstW x1 (loopPos j) = BitVec.ofNat 32 j.val := by
  show Read.val_main_v6 (F := Ideal) x1 (ix1 (loopPos j)) = _
  unfold Read.val_main_v6
  rw [join_loop]
  rfl

theorem wt_edge (e : Fin EE) : wtW x2 (edgePos e) = x2 (ix1 e) := by
  show Read.val_main_v8 (F := Ideal) x2 (ix1 (edgePos e)) = _
  unfold Read.val_main_v8
  rw [join_edge]

theorem wt_loop (j : Fin NN) : wtW x2 (loopPos j) = 1 := by
  show Read.val_main_v8 (F := Ideal) x2 (ix1 (loopPos j)) = _
  unfold Read.val_main_v8
  rw [join_loop, Read.val_main_v7_apply, Read.val_main_cst_apply, Ideal.ofBits_def]
  exact Words.ofBits_one_f32

-- Every column of target words the program lays out is this one array, so this reading serves each of them.
theorem dst_col (k : Fin 1700000) : Read.val_main_v44 (F := Ideal) x1 (ix2 k (0 : Fin 1)) = dstW x1 k := by
  rw [Read.val_main_v44_apply, show Read.idx_main_v44 (ix2 k (0 : Fin 1)) = ix1 k from eq_ix1 _]

-- Likewise every column of wrapped source words is this one array.
theorem wrapped_src (k : Fin 1700000) :
    Read.val_main_v21 (F := Ideal) x1 (ix2 k (0 : Fin 1)) = wrap 100000 (srcW x1 k) := by
  rw [Read.val_main_v21_apply, show Read.idx_main_v21 (ix2 k (0 : Fin 1)) = ix1 k from eq_ix1 _, Read.val_main_v20_apply,
    Read.val_main_v17_apply, Read.val_main_v19_apply, Read.val_main_v16_apply, Read.val_main_c_apply, Read.val_main_v18_apply,
    Read.val_main_c_3_apply]
  exact Words.wrap_select_word 100000 _

theorem wrapped_dst (k : Fin 1700000) :
    Read.val_main_v29 (F := Ideal) x1 (ix2 k (0 : Fin 1)) = wrap 100000 (dstW x1 k) := by
  rw [Read.val_main_v29_apply, show Read.idx_main_v29 (ix2 k (0 : Fin 1)) = ix1 k from eq_ix1 _, Read.val_main_v28_apply,
    Read.val_main_v25_apply, Read.val_main_v27_apply, Read.val_main_v24_apply, Read.val_main_c_4_apply, Read.val_main_v26_apply,
    Read.val_main_c_5_apply]
  exact Words.wrap_select_word 100000 _

theorem dinv_read (p : Fin 100000) :
    Read.val_main_v15 (F := Ideal) x1 x2 (ix1 p) = dvOf (dstW x1) (wtW x2) p := by
  rw [Read.val_main_v15_apply, Read.val_main_v13_apply, Read.val_main_v14_apply, Read.val_main_v12_apply,
    Read.val_main_cst_1_apply, Read.val_main_call0_v1_apply, Read.val_main_call0_v0_apply, Read.val_main_cst_2_apply,
    Ideal.ofBits_def, Words.ofBits_zero_f32, Ideal.hostUnary_rsqrt_def]
  unfold Read.val_main_v11
  rw [scatter1_read, Read.val_main_v9_apply, Read.val_main_cst_0_apply, Ideal.ofBits_def,
    Words.ofBits_zero_f32, zero_add]
  exact (Words.dinvOf_select_word _).trans (congrArg dinvOf (Finset.sum_congr rfl fun k _ =>
    congrArg (fun v => if hit v p.val then wtW x2 k else 0) (dst_col x1 k)))

theorem norm_read (k : Fin 1700000) :
    Read.val_main_v31 (F := Ideal) x1 x2 (ix1 k)
      = dvOf (dstW x1) (wtW x2) (gnode (srcW x1 k)) * wtW x2 k * dvOf (dstW x1) (wtW x2) (gnode (dstW x1 k)) := by
  rw [Read.val_main_v31_apply, Read.val_main_v23_apply, Ideal.mulf_def, Ideal.mulf_def]
  unfold Read.val_main_v22 Read.val_main_v30
  rw [gather1_read _ _ k _ (wrapped_src x1 k), gather1_read _ _ k _ (wrapped_dst x1 k), dinv_read, dinv_read]

theorem xw1_read (i : Fin 100000) (d : Fin 64) :
    Read.val_main_v32 (F := Ideal) x0 x4 (ix2 i d) = mm (A2 x0) (A2 x4) i d := by
  rw [Read.val_main_v32_apply]
  exact Finset.sum_congr rfl fun k _ => by
    rw [show Read.lidx_main_v32 (ix2 i d) k = ix2 i k from Shape.idx_ext₂ rfl rfl,
      show Read.ridx_main_v32 (ix2 i d) k = ix2 k d from Shape.idx_ext₂ rfl rfl]

-- One layer over any array `xw` of node features already multiplied by the layer's weights, and any bias `b`.
theorem layer_read (xw : (⟨S100000x64, .f32⟩ : BufTy).Contents (Elt Ideal)) (b : (⟨S64, .f32⟩ : BufTy).Contents (Elt Ideal))
    (i : Fin NN) (d : Fin 64) :
    maximumf (addf (Host.scatterAdd (F := Ideal) (φ := .f32) scatter_S100000x64_S1700000x1_S1700000x64_1_0_0_1
        (Read.val_main_v43 (F := Ideal)) (Read.val_main_v44 (F := Ideal) x1)
        (mulf (Host.gather gather_S100000x64_S1700000x1_S1700000x64_1_0_n_n_0_1_164 xw (Read.val_main_v21 (F := Ideal) x1))
          (Read.val_main_v41 (F := Ideal) x1 x2))) (Read.val_main_v47 (F := Ideal) b))
      (Read.val_main_call1_v0 (F := Ideal)) (ix2 i d)
      = GCN.layer (fun e : Fin EE => x1 (ix2 (0 : Fin 2) e)) (fun e : Fin EE => x1 (ix2 (1 : Fin 2) e)) (A1 x2) (A2 xw) (A1 b)
          i d := by
  rw [maximumf_apply, addf_apply, Read.val_main_call1_v0_apply, Read.val_main_call1_cst_apply, Ideal.ofBits_def,
    Words.ofBits_zero_f32, Read.val_main_v47_apply, Read.val_main_v46_apply,
    show Read.idx_main_v46 (Read.idx_main_v47 (ix2 i d)) = ix1 d from eq_ix1 _,
    scatter2_read, Read.val_main_v43_apply, Read.val_main_cst_8_apply, Ideal.ofBits_def,
    Words.ofBits_zero_f32, zero_add]
  refine Eq.trans ?_ (layer_of_concat (fun e : Fin EE => x1 (ix2 (0 : Fin 2) e)) (fun e : Fin EE => x1 (ix2 (1 : Fin 2) e))
    (A1 x2) (srcW x1) (dstW x1) (wtW x2) (src_edge x1) (src_loop x1) (dst_edge x1) (dst_loop x1) (wt_edge x2) (wt_loop x2)
    (A2 xw) (A1 b) i d)
  refine congrArg (fun s => max (s + b (ix1 d)) 0) (Finset.sum_congr rfl fun k _ => ?_)
  rw [dst_col x1 k, mulf_apply, gather2_read xw _ k d _ (wrapped_src x1 k), Read.val_main_v41_apply, Read.val_main_v40_apply,
    show Read.idx_main_v40 (Read.idx_main_v41 (ix2 k d)) = ix1 k from eq_ix1 _, norm_read]

theorem layer1_read (i : Fin NN) (d : Fin 64) :
    Read.val_main_v49 (F := Ideal) x0 x1 x2 x4 x5 (ix2 i d)
      = GCN.layer (fun e : Fin EE => x1 (ix2 (0 : Fin 2) e)) (fun e : Fin EE => x1 (ix2 (1 : Fin 2) e)) (A1 x2)
          (GCN.mm (A2 x0) (A2 x4)) (A1 x5) i d := by
  rw [← show A2 (Read.val_main_v32 (F := Ideal) x0 x4) = GCN.mm (A2 x0) (A2 x4) from funext₂ (xw1_read x0 x4)]
  exact layer_read x1 x2 _ x5 i d

end Chain
end Cert.ReferenceIdeal.RefValue
end
-- ==== Proof.Ref.Layer2.lean ====
import proofs.«403409_j10926396801662_3_alg».proof.Proof.Ref.Layer1

noncomputable section

namespace Cert.ReferenceIdeal.RefValue

open Cert.ReferenceIdeal Cert.ReferenceIdeal.Gen Idealize.ShloMosaic Idealize.ShloMosaic.ValueIdx GCN
open scoped BigOperators

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x4 : (⟨S128x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))
  (a1 : Fin NN → Fin 64 → EReal)

theorem xw2_read (ha1 : ∀ (i : Fin NN) (d : Fin 64), Read.val_main_v49 (F := Ideal) x0 x1 x2 x4 x5 (ix2 i d) = a1 i d)
    (i : Fin 100000) (d : Fin 64) :
    Read.val_main_v78 (F := Ideal) x0 x1 x2 x4 x5 x6 (ix2 i d) = mm a1 (A2 x6) i d := by
  rw [Read.val_main_v78_apply]
  exact Finset.sum_congr rfl fun k _ => by
    rw [show Read.lidx_main_v78 (ix2 i d) k = ix2 i k from Shape.idx_ext₂ rfl rfl,
      show Read.ridx_main_v78 (ix2 i d) k = ix2 k d from Shape.idx_ext₂ rfl rfl, ha1]

-- The second layer lays out the first layer's joined tables again, so it is the same reading over another product and bias.
theorem layer2_read (ha1 : ∀ (i : Fin NN) (d : Fin 64), Read.val_main_v49 (F := Ideal) x0 x1 x2 x4 x5 (ix2 i d) = a1 i d)
    (i : Fin NN) (d : Fin 64) :
    Read.val_main_v95 (F := Ideal) x0 x1 x2 x4 x5 x6 x7 (ix2 i d)
      = GCN.layer (fun e : Fin EE => x1 (ix2 (0 : Fin 2) e)) (fun e : Fin EE => x1 (ix2 (1 : Fin 2) e)) (A1 x2)
          (GCN.mm a1 (A2 x6)) (A1 x7) i d := by
  rw [← show A2 (Read.val_main_v78 (F := Ideal) x0 x1 x2 x4 x5 x6) = GCN.mm a1 (A2 x6) from
    funext₂ (xw2_read x0 x1 x2 x4 x5 x6 a1 ha1)]
  exact layer_read x1 x2 _ x7 i d

end Cert.ReferenceIdeal.RefValue

end
-- ==== Proof.Ref.Head.lean ====
import proofs.«403409_j10926396801662_3_alg».proof.Proof.Gen.ReferenceIdeal.Read
import proofs.«403409_j10926396801662_3_alg».proof.Proof.LibGraphOps
import proofs.«403409_j10926396801662_3_alg».proof.Proof.LibWords
import proofs.«403409_j10926396801662_3_alg».proof.Proof.Spec

noncomputable section

namespace Cert.ReferenceIdeal.RefValue

open Cert.ReferenceIdeal Cert.ReferenceIdeal.Gen Idealize.ShloMosaic Idealize.ShloMosaic.ValueIdx GCN
open scoped BigOperators

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S100000, .i32⟩ : BufTy).Contents (Elt Ideal))
  (x4 : (⟨S128x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x32, .f32⟩ : BufTy).Contents (Elt Ideal)) (x9 : (⟨S32, .f32⟩ : BufTy).Contents (Elt Ideal))
  (x10 : (⟨S32x10, .f32⟩ : BufTy).Contents (Elt Ideal)) (x11 : (⟨S10, .f32⟩ : BufTy).Contents (Elt Ideal))
  (a2 : Fin NN → Fin 64 → EReal)

theorem cnt_read (g : Fin 128) : Read.val_main_v102 (F := Ideal) x3 (ix1 g) = GCN.cnt (A1 x3) g := by
  unfold Read.val_main_v102
  show Ideal.hostScatterAdd scatter_S128_S100000x1_S100000_n_0_0_1 (Read.val_main_v100 (F := Ideal))
    (Read.val_main_v101 (F := Ideal) x3) (Read.val_main_v99 (F := Ideal)) (ix1 g) = _
  rw [GraphOps.scatterAdd_rows1 _ rfl rfl rfl rfl, Read.val_main_v100_apply, Read.val_main_cst_22_apply, Ideal.ofBits_def,
    Words.ofBits_zero_f32, zero_add]
  exact Finset.sum_congr rfl fun e _ => by
    rw [Read.val_main_v101_apply, show Read.idx_main_v101 (ix2 e (0 : Fin 1)) = ix1 e from eq_ix1 _, Read.val_main_v99_apply,
      Read.val_main_cst_21_apply, Ideal.ofBits_def, Words.ofBits_one_f32]

theorem pool_read (ha2 : ∀ i d, Read.val_main_v95 (F := Ideal) x0 x1 x2 x4 x5 x6 x7 (ix2 i d) = a2 i d) (g : Fin 128) (d : Fin 64) :
    Read.val_main_v98 (F := Ideal) x0 x1 x2 x3 x4 x5 x6 x7 (ix2 g d) = GCN.pool (A1 x3) a2 g d := by
  unfold Read.val_main_v98
  generalize Read.val_main_v95 (F := Ideal) x0 x1 x2 x4 x5 x6 x7 = y at ha2 ⊢
  show Ideal.hostScatterAdd scatter_S128x64_S100000x1_S100000x64_1_0_0_1 (Read.val_main_v96 (F := Ideal))
    (Read.val_main_v97 (F := Ideal) x3) y (ix2 g d) = _
  rw [GraphOps.scatterAdd_rows2 _ rfl rfl rfl rfl, Read.val_main_v96_apply, Read.val_main_cst_20_apply, Ideal.ofBits_def,
    Words.ofBits_zero_f32, zero_add]
  exact Finset.sum_congr rfl fun e _ => by
    rw [Read.val_main_v97_apply, show Read.idx_main_v97 (ix2 e (0 : Fin 1)) = ix1 e from eq_ix1 _, ha2]

theorem clip_read (g : Fin 128) (m : Fin 64) :
    Read.val_main_v105 (F := Ideal) x3 (ix2 g m) = max 1 (GCN.cnt (A1 x3) g) := by
  rw [Read.val_main_v105_apply, Read.val_main_v104_apply,
    show Read.idx_main_v104 (Read.idx_main_v105 (ix2 g m)) = ix1 g from eq_ix1 _, Read.val_main_v103_apply, cnt_read,
    Read.val_main_call4_v1_apply, Read.val_main_call4_v0_apply, Read.val_main_cst_23_apply, Ideal.ofBits_def, Words.ofBits_one_f32]
  rfl

theorem mean_read (ha2 : ∀ i d, Read.val_main_v95 (F := Ideal) x0 x1 x2 x4 x5 x6 x7 (ix2 i d) = a2 i d) (g : Fin 128) (m : Fin 64) :
    Read.val_main_v106 (F := Ideal) x0 x1 x2 x3 x4 x5 x6 x7 (ix2 g m)
      = Ideal.div (GCN.pool (A1 x3) a2 g m) (max 1 (GCN.cnt (A1 x3) g)) := by
  rw [Read.val_main_v106_apply, pool_read x0 x1 x2 x3 x4 x5 x6 x7 a2 ha2, clip_read]
  rfl

theorem hidden_read (ha2 : ∀ i d, Read.val_main_v95 (F := Ideal) x0 x1 x2 x4 x5 x6 x7 (ix2 i d) = a2 i d) (g : Fin 128) (l : Fin 32) :
    Read.val_main_v111 (F := Ideal) x0 x1 x2 x3 x4 x5 x6 x7 x8 x9 (ix2 g l)
      = max ((∑ m : Fin 64, Ideal.div (GCN.pool (A1 x3) a2 g m) (max 1 (GCN.cnt (A1 x3) g)) * x8 (ix2 m l)) + x9 (ix1 l)) 0 := by
  have el : ∀ m : Fin 64, Read.lidx_main_v107 (ix2 g l) m = ix2 g m := fun m => Shape.idx_ext₂ rfl rfl
  have er : ∀ m : Fin 64, Read.ridx_main_v107 (ix2 g l) m = ix2 m l := fun m => Shape.idx_ext₂ rfl rfl
  rw [Read.val_main_v111_apply, Read.val_main_v110_apply, Read.val_main_v107_apply, Read.val_main_v109_apply,
    Read.val_main_v108_apply, show Read.idx_main_v108 (Read.idx_main_v109 (ix2 g l)) = ix1 l from eq_ix1 _,
    Read.val_main_call5_v0_apply, Read.val_main_call5_cst_apply, Ideal.ofBits_def, Words.ofBits_zero_f32]
  simp only [el, er, mean_read x0 x1 x2 x3 x4 x5 x6 x7 a2 ha2]
  rfl

theorem head_read (ha2 : ∀ i d, Read.val_main_v95 (F := Ideal) x0 x1 x2 x4 x5 x6 x7 (ix2 i d) = a2 i d) (g : Fin GG) (j : Fin 10) :
    Read.val_main_v115 (F := Ideal) x0 x1 x2 x3 x4 x5 x6 x7 x8 x9 x10 x11 (ix2 g j)
      = GCN.head (GCN.pool (A1 x3) a2) (GCN.cnt (A1 x3)) (A2 x8) (A1 x9) (A2 x10) (A1 x11) g j := by
  have el : ∀ l : Fin 32, Read.lidx_main_v112 (ix2 g j) l = ix2 g l := fun l => Shape.idx_ext₂ rfl rfl
  have er : ∀ l : Fin 32, Read.ridx_main_v112 (ix2 g j) l = ix2 l j := fun l => Shape.idx_ext₂ rfl rfl
  rw [Read.val_main_v115_apply, Read.val_main_v112_apply, Read.val_main_v114_apply, Read.val_main_v113_apply,
    show Read.idx_main_v113 (Read.idx_main_v114 (ix2 g j)) = ix1 j from eq_ix1 _]
  simp only [el, er, hidden_read x0 x1 x2 x3 x4 x5 x6 x7 x8 x9 a2 ha2]
  rfl

end Cert.ReferenceIdeal.RefValue

end
-- ==== Proof.Ref.Value.lean ====
import proofs.«403409_j10926396801662_3_alg».proof.Proof.Gen.ReferenceIdeal.Read
import proofs.«403409_j10926396801662_3_alg».proof.Proof.Spec
import proofs.«403409_j10926396801662_3_alg».proof.Proof.Ref.Layer1
import proofs.«403409_j10926396801662_3_alg».proof.Proof.Ref.Layer2
import proofs.«403409_j10926396801662_3_alg».proof.Proof.Ref.Head

noncomputable section

namespace Cert.ReferenceIdeal.RefValue

open Cert.ReferenceIdeal Cert.ReferenceIdeal.Gen Idealize.ShloMosaic Idealize.ShloMosaic.ValueIdx GCN
open scoped BigOperators

-- The first layer's array feeds the second layer, whose array feeds the pooling and the perceptron.
theorem ref_value (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S100000, .i32⟩ : BufTy).Contents (Elt Ideal))
    (x4 : (⟨S128x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x32, .f32⟩ : BufTy).Contents (Elt Ideal)) (x9 : (⟨S32, .f32⟩ : BufTy).Contents (Elt Ideal))
    (x10 : (⟨S32x10, .f32⟩ : BufTy).Contents (Elt Ideal)) (x11 : (⟨S10, .f32⟩ : BufTy).Contents (Elt Ideal))
    (g : Fin 128) (j : Fin 10) :
    Read.val_main_v115 (F := Ideal) x0 x1 x2 x3 x4 x5 x6 x7 x8 x9 x10 x11 (ix2 g j)
      = GCN.out (fun e => x1 (ix2 0 e)) (fun e => x1 (ix2 1 e)) (A1 x2) (A1 x3) (A2 x0) (A2 x4) (A1 x5) (A2 x6) (A1 x7)
          (A2 x8) (A1 x9) (A2 x10) (A1 x11) g j := by
  unfold GCN.out
  exact head_read x0 x1 x2 x3 x4 x5 x6 x7 x8 x9 x10 x11 _
    (fun i d => layer2_read x0 x1 x2 x4 x5 x6 x7 _ (fun i' d' => layer1_read x0 x1 x2 x4 x5 i' d') i d) g j

end Cert.ReferenceIdeal.RefValue

end
-- ==== Proof.lean ====
import proofs.«403409_j10926396801662_3_alg».proof.Defs
import proofs.«403409_j10926396801662_3_alg».proof.Proof.Gen.Kernel
import proofs.«403409_j10926396801662_3_alg».proof.Proof.Gen.KernelIdeal
import proofs.«403409_j10926396801662_3_alg».proof.Proof.Gen.ReferenceIdeal
import proofs.«403409_j10926396801662_3_alg».proof.Proof.Gen.Pre_finite_inputs
import proofs.«403409_j10926396801662_3_alg».proof.Proof.Gen.ReferenceIdeal.Run
import proofs.«403409_j10926396801662_3_alg».proof.Proof.Gen.ReferenceIdeal.Read
import proofs.«403409_j10926396801662_3_alg».proof.Proof.KI.Run
import proofs.«403409_j10926396801662_3_alg».proof.Proof.Val.Kernel
import proofs.«403409_j10926396801662_3_alg».proof.Proof.Ref.Value
import Idealize.ShloMosaic.Adequacy
import Idealize.ShloMosaic.Init

noncomputable section

namespace Cert.Proof

open Idealize.ShloMosaic Idealize.ShloMosaic.TcCoe Idealize.ShloMosaic.Tactic Idealize.SL.Sem

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The two printed kernel programs are the same definitions under two names (the idealisation rewrote nothing), so the
    frame proved at every float carrier serves both. -/
theorem frame_k : Cert.frame_Kernel (hKernel := Cert.Kernel.Gen.facts) (hPre_finite_inputs := Cert.Pre_finite_inputs.Gen.facts) :=
  cast (by sl_kernel_rfl)
    (fun (m : (ℓ : Loc Cert.Kernel.nD Cert.Kernel.τ Cert.Kernel.sig) → Buf (Elt Bits) ℓ) (ρ : Dev Cert.Kernel.nD → PrngReg)
        (_ : Cert.Pre_Kernel (hPre_finite_inputs := Cert.Pre_finite_inputs.Gen.facts) m) =>
      Cert.KernelIdeal.Hand.frame (F := Bits) m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with their results at GCN.out of the arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W10 m ρ c (Proc.devRef .tc Cert.KernelIdeal.main_v88), Cert.KernelIdeal.Hand.run_value m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v115_eq, h0, h1, h2, h3, h4, h5, h6, h7, h8, h9, h10, h11]
  funext idx
  rw [ValueIdx.eq_ix2 idx]
  exact (Cert.ReferenceIdeal.RefValue.ref_value _ _ _ _ _ _ _ _ _ _ _ _ (idx 0) (idx 1)).trans
    (Cert.KernelIdeal.Val.kernel_value m ρ c (idx 0) (idx 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
